-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S2x600000 : Shape := ⟨2, ![2, 600000]⟩
abbrev S50000 : Shape := ⟨1, ![50000]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg7 : FVec F S128x2 .f32) (main_arg8 : FVec F S2 .f32) (main_arg10 : IVec S50000 32) (main_v33 : IVec S_ 1) : IVec S_ 1 :=
  let main_v34 : FVec F S128x2 .f32 := Host.absf main_arg7
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg10 main_v44
  let main_c_17 : IVec S_ 1 := constantI S_ 1 1#1
  let main_v46 : IVec S_ 1 := (fun x v => Host.reduce IntOp.andi x v reducesTo_S50000_S_d0 h_S_) main_v45 main_c_17
  let main_v47 : IVec S_ 1 := andi main_v43 main_v46
  main_v47

def fn_part1 {F : FTy → Type} [FloatOps F] (main_arg4 : FVec F S128 .f32) (main_arg5 : FVec F S128x128 .f32) (main_arg6 : FVec F S128 .f32) (main_arg7 : FVec F S128x2 .f32) (main_arg8 : FVec F S2 .f32) (main_arg10 : IVec S50000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg10 main_v33

def fn {F : FTy → Type} [FloatOps F] (main_arg0 : FVec F S50000x1 .f32) (main_arg1 : FVec F S1x128 .f32) (main_arg2 : FVec F S128 .f32) (main_arg3 : FVec F S128x128 .f32) (main_arg4 : FVec F S128 .f32) (main_arg5 : FVec F S128x128 .f32) (main_arg6 : FVec F S128 .f32) (main_arg7 : FVec F S128x2 .f32) (main_arg8 : FVec F S2 .f32) (main_arg9 : IVec S2x600000 32) (main_arg10 : IVec S50000 32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg10 main_v13 main_v16
-- ==== Kernel.lean ====
abbrev S50000x1 : Shape := ⟨2, ![50000, 1]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x128 : Shape := ⟨2, ![50000, 128]⟩
abbrev S2000x1 : Shape := ⟨2, ![2000, 1]⟩
abbrev S2000x128 : Shape := ⟨2, ![2000, 128]⟩
abbrev S600000x128 : Shape := ⟨2, ![600000, 128]⟩
abbrev S500 : Shape := ⟨1, ![500]⟩
abbrev S12 : Shape := ⟨1, ![12]⟩
abbrev S512 : Shape := ⟨1, ![512]⟩
abbrev S512x1 : Shape := ⟨2, ![512, 1]⟩
abbrev S1x2 : Shape := ⟨2, ![1, 2]⟩
abbrev S512x2 : Shape := ⟨2, ![512, 2]⟩
abbrev S512x128 : Shape := ⟨2, ![512, 128]⟩
abbrev S2000x512 : Shape := ⟨2, ![2000, 512]⟩
abbrev S500x2 : Shape := ⟨2, ![500, 2]⟩

abbrev nBuf : Space → Nat
  | .hbm => 109
  | .vmem => 47
  | .smem => 0
  | _ => 0

abbrev bufTy : (tb : Table) → Fin (tcTables nBuf tb) → BufTy
  | .hbm, ⟨0, _⟩ => ⟨S50000x1, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S2x600000, .i32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S_, .f32⟩
  | .hbm, ⟨26, _⟩ => ⟨S600000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000, .f32⟩
  | .hbm, ⟨44, _⟩ => ⟨S_, .f32⟩
  | .hbm, ⟨45, _⟩ => ⟨S50000, .f32⟩
  | .hbm, ⟨46, _⟩ => ⟨S600000x1, .i32⟩
  | .hbm, ⟨47, _⟩ => ⟨S50000, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S500, .f32⟩
  | .hbm, ⟨87, _⟩ => ⟨S_, .i32⟩
  | .hbm, ⟨88, _⟩ => ⟨S50000, .i32⟩
  | .hbm, ⟨89, _⟩ => ⟨S50000, .i1⟩
  | .hbm, ⟨90, _⟩ => ⟨S_, .i32⟩
  | .hbm, ⟨91, _⟩ => ⟨S50000, .i32⟩
  | .hbm, ⟨92, _⟩ => ⟨S50000, .i32⟩
  | .hbm, ⟨93, _⟩ => ⟨S50000, .i32⟩
  | .hbm, ⟨94, _⟩ => ⟨S50000x1, .i32⟩
  | .hbm, ⟨95, _⟩ => ⟨S_, .f32⟩
  | .hbm, ⟨96, _⟩ => ⟨S50000, .f32⟩
  | .hbm, ⟨97, _⟩ => ⟨S500, .f32⟩
  | .hbm, ⟨98, _⟩ => ⟨S_, .f32⟩
  | .hbm, ⟨99, _⟩ => ⟨S500, .f32⟩
  | .hbm, ⟨100, _⟩ => ⟨S500, .f32⟩
  | .hbm, ⟨101, _⟩ => ⟨S_, .f32⟩
  | .hbm, ⟨102, _⟩ => ⟨S12, .f32⟩
  | .hbm, ⟨103, _⟩ => ⟨S512, .f32⟩
  | .hbm, ⟨104, _⟩ => ⟨S512x1, .f32⟩
  | .hbm, ⟨105, _⟩ => ⟨S50000x1, .i32⟩
  | .hbm, ⟨106, _⟩ => ⟨S1x2, .f32⟩
  | .hbm, ⟨107, _⟩ => ⟨S512x2, .f32⟩
  | .hbm, ⟨108, _⟩ => ⟨S500x2, .f32⟩
  | .local _ .vmem, ⟨0, _⟩ => ⟨S2000x1, .f32⟩
  | .local _ .vmem, ⟨1, _⟩ => ⟨S2000x1, .f32⟩
  | .local _ .vmem, ⟨2, _⟩ => ⟨S1x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S2000x1, .f32⟩
  | .local _ .vmem, ⟨26, _⟩ => ⟨S2000x1, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x1, .f32⟩
  | .local _ .vmem, ⟨34, _⟩ => ⟨S2000x1, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x1, .i32⟩
  | .local _ .vmem, ⟨41, _⟩ => ⟨S2000x1, .i32⟩
  | .local _ .vmem, ⟨42, _⟩ => ⟨S512x1, .f32⟩
  | .local _ .vmem, ⟨43, _⟩ => ⟨S128x2, .f32⟩
  | .local _ .vmem, ⟨44, _⟩ => ⟨S1x2, .f32⟩
  | .local _ .vmem, ⟨45, _⟩ => ⟨S512x2, .f32⟩
  | .local _ .vmem, ⟨46, _⟩ => ⟨S512x128, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_scratch0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S50000_S50000x1 : S50000.ShapeCasts S50000x1
  shapeCasts_S50000x1_S50000 : S50000x1.ShapeCasts S50000
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  broadcasts_S2000x1_S2000x128 : S2000x1.Broadcasts S2000x128
  broadcasts_S1x128_S2000x128 : S1x128.Broadcasts S2000x128
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  bcast_S_S500 : S_.BroadcastsInDim S500 (![] : Fin 0 → Fin S500.rank)
  bcast_S50000_S50000x1_0 : S50000.BroadcastsInDim S50000x1 (![0] : Fin 1 → Fin S50000x1.rank)
  bcast_S_S12 : S_.BroadcastsInDim S12 (![] : Fin 0 → Fin S12.rank)
  concatenates_S500_S12_S512_d0 : Shape.Concatenates [S500, S12] S512 0
  shapeCasts_S512_S512x1 : S512.ShapeCasts S512x1
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S2000x512_d1_w32 : S2000x512.Iotas .tc 32 [1]
  broadcasts_S2000x1_S2000x512 : S2000x1.Broadcasts S2000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  slices_S512x2_S500x2_0_0 : S512x2.Slices ![0, 0] S500x2
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S500_S50000x1_S50000_n_0_0_1_wf : ScatterDims.WF S500 S50000x1 S50000 [] [0] [0] 1
  dot_S2000x512_S2000x128_S512x128_0_0_1_1_n_n_wf : DotDims.WF S2000x512 S2000x128 S512x128 [0] [0] [1] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .f32 = 32 ∨ (Rect.block (s := S50000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .i32 = 32 ∨ (Rect.block (s := S50000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x1.size a ≤ S512x1.size a
  hwx5_2 : ∀ i : grid5.Coords, EltTy.bits .f32 = 32 ∨ (Rect.block (s := S512x1) S512x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x2.size a ≤ S128x2.size a
  hwx5_3 : ∀ i : grid5.Coords, EltTy.bits .f32 = 32 ∨ (Rect.block (s := S128x2) S128x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x2.size a ≤ S512x2.size a
  hwx5_5 : ∀ i : grid5.Coords, EltTy.bits .f32 = 32 ∨ (Rect.block (s := S512x2) S512x2.size (cc5_transform_5 i) (hinb5_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v31) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v57) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v59) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S512x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S512x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S50000x1 : Shape := ⟨2, ![50000, 1]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S50000x128 : Shape := ⟨2, ![50000, 128]⟩
abbrev S_ : Shape := ⟨0, ![]⟩
abbrev S600000x1 : Shape := ⟨2, ![600000, 1]⟩
abbrev S600000x128 : Shape := ⟨2, ![600000, 128]⟩
abbrev S500x128 : Shape := ⟨2, ![500, 128]⟩
abbrev S500 : Shape := ⟨1, ![500]⟩
abbrev S500x1 : Shape := ⟨2, ![500, 1]⟩
abbrev S500x2 : Shape := ⟨2, ![500, 2]⟩
abbrev S1x2 : Shape := ⟨2, ![1, 2]⟩

abbrev nBuf : Space → Nat
  | .hbm => 224
  | .vmem => 0
  | .smem => 0
  | _ => 0

abbrev hbmTy0_0 (i : Nat) : BufTy := match i % 128 with
  | 0 => ⟨S50000x1, .f32⟩
  | 1 => ⟨S1x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S2x600000, .i32⟩
  | 10 => ⟨S50000, .i32⟩
  | 11 => ⟨S1x600000, .i32⟩
  | 12 => ⟨S600000, .i32⟩
  | 13 => ⟨S1x600000, .i32⟩
  | 14 => ⟨S600000, .i32⟩
  | 15 => ⟨S50000x128, .f32⟩
  | 16 => ⟨S_, .f32⟩
  | 17 => ⟨S50000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S_, .f32⟩
  | 27 => ⟨S600000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x1, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S_, .f32⟩
  | 91 => ⟨S600000, .f32⟩
  | 92 => ⟨S50000, .f32⟩
  | 93 => ⟨S_, .f32⟩
  | 94 => ⟨S50000, .f32⟩
  | 95 => ⟨S50000, .f32⟩
  | 96 => ⟨S50000, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000, .f32⟩
  | 115 => ⟨S600000, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .f32⟩
  | 125 => ⟨S600000x1, .f32⟩
  | 126 => ⟨S600000x128, .f32⟩
  | 127 => ⟨S600000x128, .f32⟩
  | _ => ⟨S50000x1, .f32⟩

abbrev hbmTy0_1 (i : Nat) : BufTy := match i % 128 with
  | 0 => ⟨S_, .f32⟩
  | 1 => ⟨S50000x128, .f32⟩
  | 2 => ⟨S600000x1, .i32⟩
  | 3 => ⟨S50000x128, .f32⟩
  | 4 => ⟨S50000, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S_, .f32⟩
  | 17 => ⟨S50000, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S_, .f32⟩
  | 27 => ⟨S600000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x1, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S500x128, .f32⟩
  | 78 => ⟨S50000x1, .i32⟩
  | 79 => ⟨S500x128, .f32⟩
  | 80 => ⟨S_, .f32⟩
  | 81 => ⟨S50000, .f32⟩
  | 82 => ⟨S_, .f32⟩
  | 83 => ⟨S500, .f32⟩
  | 84 => ⟨S50000x1, .i32⟩
  | 85 => ⟨S500, .f32⟩
  | 86 => ⟨S_, .f32⟩
  | 87 => ⟨S500, .f32⟩
  | 88 => ⟨S500, .f32⟩
  | 89 => ⟨S500x1, .f32⟩
  | 90 => ⟨S500x128, .f32⟩
  | 91 => ⟨S500x128, .f32⟩
  | 92 => ⟨S500x2, .f32⟩
  | 93 => ⟨S1x2, .f32⟩
  | 94 => ⟨S500x2, .f32⟩
  | 95 => ⟨S500x2, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_cst : Ref sig .tc := ⟨.hbm, 76, rfl⟩
abbrev main_call0_v0 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call1_cst : Ref sig .tc := ⟨.hbm, 140, rfl⟩
abbrev main_call1_v0 : Ref sig .tc := ⟨.hbm, 141, rfl⟩
abbrev main_v103 : Ref sig .tc := ⟨.hbm, 142, rfl⟩
abbrev main_v104 : Ref sig .tc := ⟨.hbm, 143, rfl⟩
abbrev main_cst_22 : Ref sig .tc := ⟨.hbm, 144, rfl⟩
abbrev main_v105 : Ref sig .tc := ⟨.hbm, 145, rfl⟩
abbrev main_c_23 : Ref sig .tc := ⟨.hbm, 146, rfl⟩
abbrev main_v106 : Ref sig .tc := ⟨.hbm, 147, rfl⟩
abbrev main_v107 : Ref sig .tc := ⟨.hbm, 148, rfl⟩
abbrev main_c_24 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_25 : Ref sig .tc := ⟨.hbm, 154, rfl⟩
abbrev main_v112 : Ref sig .tc := ⟨.hbm, 155, rfl⟩
abbrev main_v113 : Ref sig .tc := ⟨.hbm, 156, rfl⟩
abbrev main_cst_26 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_27 : Ref sig .tc := ⟨.hbm, 161, rfl⟩
abbrev main_v117 : Ref sig .tc := ⟨.hbm, 162, rfl⟩
abbrev main_v118 : Ref sig .tc := ⟨.hbm, 163, rfl⟩
abbrev main_c_28 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_c_29 : Ref sig .tc := ⟨.hbm, 170, rfl⟩
abbrev main_v124 : Ref sig .tc := ⟨.hbm, 171, rfl⟩
abbrev main_v125 : Ref sig .tc := ⟨.hbm, 172, rfl⟩
abbrev main_c_30 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_31 : Ref sig .tc := ⟨.hbm, 180, rfl⟩
abbrev main_v132 : Ref sig .tc := ⟨.hbm, 181, rfl⟩
abbrev main_v133 : Ref sig .tc := ⟨.hbm, 182, rfl⟩
abbrev main_c_32 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_33 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_34 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_35 : Ref sig .tc := ⟨.hbm, 208, rfl⟩
abbrev main_v156 : Ref sig .tc := ⟨.hbm, 209, rfl⟩
abbrev main_cst_36 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_37 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S2_S1x2_1 : S2.BroadcastsInDim S1x2 (![1] : Fin 1 → Fin S1x2.rank)
  bcast_S1x2_S500x2_0_1 : S1x2.BroadcastsInDim S500x2 (![0, 1] : Fin 2 → Fin S500x2.rank)
  dot_S50000x1_S1x128_S50000x128_1_0_0_1_n_n_wf : DotDims.WF S50000x1 S1x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x2_S500x2_1_0_0_1_n_n_wf : DotDims.WF S500x128 S128x2 S500x2 [1] [0] [0] [1] [] []

variable [Facts₀]

def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x2_S500x2_1_0_0_1_n_n : DotDims S500x128 S128x2 S500x2 where
  lhsContracting := [1]
  rhsContracting := [0]
  lhsNonContracting := [0]
  rhsNonContracting := [1]
  lhsBatch := []
  rhsBatch := []
  wf := dot_S500x128_S128x2_S500x2_1_0_0_1_n_n_wf

class Facts : Prop extends Facts₀ where

variable [Facts]
-- ==== Proof.KBDefs.lean ====
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rA : Rect S2000x1 := Rect.unit (s := S2000x1) ![0, 0] S2000x1.size inb_S2000x1_S2000x1_0_0
abbrev rB : Rect S1x128 := Rect.unit (s := S1x128) ![0, 0] S1x128.size inb_S1x128_S1x128_0_0
abbrev rC : Rect S2000x128 := Rect.unit (s := S2000x128) ![0, 0] S2000x128.size inb_S2000x128_S2000x128_0_0
abbrev rD : Rect S128x128 := Rect.unit (s := S128x128) ![0, 0] S128x128.size inb_S128x128_S128x128_0_0
abbrev rE : Rect S512x128 := Rect.unit (s := S512x128) ![0, 0] S512x128.size inb_S512x128_S512x128_0_0
abbrev rG : Rect S512x1 := Rect.unit (s := S512x1) ![0, 0] S512x1.size inb_S512x1_S512x1_0_0
abbrev rH : Rect S128x2 := Rect.unit (s := S128x2) ![0, 0] S128x2.size inb_S128x2_S128x2_0_0
abbrev rI : Rect S1x2 := Rect.unit (s := S1x2) ![0, 0] S1x2.size inb_S1x2_S1x2_0_0
abbrev rJ : Rect S512x2 := Rect.unit (s := S512x2) ![0, 0] S512x2.size inb_S512x2_S512x2_0_0

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S2000x1 .f32) (x1 : Vec F S1x128 .f32) (x2 : Vec F S1x128 .f32) : Vec F S2000x128 .f32 :=
  View.canon [⟨rC, k0_pay1 (View.ld x0 rA) (View.ld x1 rB) (View.ld x2 rB)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S2000x128 .f32) (x1 : Vec F S128x128 .f32) (x2 : Vec F S2000x1 .f32) : Vec F S2000x128 .f32 :=
  View.canon [⟨rC, k1_pay1 (View.ld x0 rC) (View.ld x1 rD) (View.ld x2 rA)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S2000x128 .f32) (x1 : Vec F S2000x128 .f32) (x2 : Vec F S2000x1 .f32) (x3 : Vec F S1x128 .f32) : Vec F S2000x128 .f32 :=
  View.canon [⟨rC, k2_pay1 (View.ld x2 rA) (View.ld x0 rC) (View.ld x1 rC) (View.ld x3 rB)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S2000x128 .f32) (x1 : Vec F S128x128 .f32) (x2 : Vec F S2000x1 .f32) : Vec F S2000x128 .f32 :=
  View.canon [⟨rC, k3_pay1 (View.ld x0 rC) (View.ld x1 rD) (View.ld x2 rA)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_4 (x0 : Vec F S2000x128 .f32) (x1 : Vec F S2000x128 .f32) (x2 : Vec F S2000x1 .f32) (x3 : Vec F S1x128 .f32) : Vec F S2000x128 .f32 :=
  View.canon [⟨rC, k4_pay1 (View.ld x2 rA) (View.ld x0 rC) (View.ld x1 rC) (View.ld x3 rB)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x128 .f32 := Memref.whole cc5_scratch0

def acc5 (xb : Vec F S2000x1 .i32) (xh : Vec F S2000x128 .f32) (s : Vec F S512x128 .f32) : Vec F S512x128 .f32 :=
  View.canon [⟨rE, k5_pay2 (View.ld xb rA) (View.ld xh rC) s⟩]

def scAt5 (c : Dev nD) : (n : ℕ) → n < cfg5.N → Vec F S512x128 .f32
  | 0, hn => acc5 (iblk5 V c 1 ⟨0, hn⟩) (iblk5 V c 0 ⟨0, hn⟩) (View.ld (View.canon [⟨rE, k5_pay1 (F := F)⟩]) rE)
  | n + 1, hn => acc5 (iblk5 V c 1 ⟨n + 1, hn⟩) (iblk5 V c 0 ⟨n + 1, hn⟩) (View.ld (scAt5 c n (Nat.lt_of_succ_lt hn)) rE)

def out5_5 (s : Vec F S512x128 .f32) (x2 : Vec F S512x1 .f32) (x3 : Vec F S128x2 .f32) (x4 : Vec F S1x2 .f32) : Vec F S512x2 .f32 :=
  View.canon [⟨rJ, k5_pay3 (View.ld s rE) (View.ld x2 rG) (View.ld x3 rH) (View.ld x4 rI)⟩]

def PhiS5 (c : Dev nD) : (n : ℕ) → n ≤ cfg5.N → sProp 𝕄
  | 0, _ => Pipeline.ΦA spec5 c
  | n + 1, hn => iprop(owns (c : Thread nD τ) scM5 fullShare (scAt5 V c n hn)
      ∗ Pipeline.scopedRestBut (Ix := Unit) (Name := ℕ) (U := UR sig nD τ) (Lvl := ℕ) (Val := Elt F) spec5 c [cc5_scratch0]
      ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (scAt5 V c t.val t.isLt) (iblk5 V c 2 t) (iblk5 V c 3 t) (iblk5 V c 4 t)
  Φ t := PhiS5 V c t.val (Nat.le_of_lt_succ t.isLt)
  q _ := fullShare
  owed _ := 0

end Cert.Kernel.Hand

end
-- ==== Proof.KBReg0.lean ====
import proofs.«405176_j18674517803330_2_alg».proof.Proof.KBDefs
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem cover0_3 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem sound_kernel0 (c : Dev nD) (E : Set ℕ) (i : grid0.Coords)
    (arg1 : Memref sig .tc .vmem S2000x1 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x1 .f32) (x1 : Vec F S1x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__combine_rank1_kernel i arg1 harg1 arg2 harg2 arg3 harg3 arg4 harg4) K := by
  simp only [cc0__combine_rank1_kernel_eq_skeleton]; unfold cc0__combine_rank1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe; ipureintro; rfl
  isplitl [H1]; · iexists f1; iframe; ipureintro; rfl
  isplitl [H2]; · iexists f2; iframe; ipureintro; rfl
  iexists _; isplitr
  swap; · iexact H3
  ipureintro
  exact View.read_writes_eq_canon _ _ _ (cover0_3 _)

theorem held0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(held0 V c _).1, (held0 V c _).2.1, (held0 V c _).2.2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBReg1.lean ====
import proofs.«405176_j18674517803330_2_alg».proof.Proof.KBDefs
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem whole1_3 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem layer1_runs (c : Dev nD) (E : Set ℕ) (i : grid1.Coords)
    (a0 : Memref sig .tc .vmem S2000x128 .f32) (h0 : a0.IsWhole)
    (a1 : Memref sig .tc .vmem S128x128 .f32) (h1 : a1.IsWhole)
    (a2 : Memref sig .tc .vmem S2000x1 .f32) (h2 : a2.IsWhole)
    (a3 : Memref sig .tc .vmem S2000x128 .f32) (h3 : a3.IsWhole)
    (x0 : Vec F S2000x128 .f32) (x1 : Vec F S128x128 .f32) (x2 : Vec F S2000x1 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (out1_3 x0 x1 x2)) -∗ K ⟨⟩))
      ⊢ wp frame (wpE (defs₀ (F := F)) Variants.none c none) E (cc1__linear_scale_kernel i a0 h0 a1 h1 a2 h2 a3 h3) K := by
  simp only [cc1__linear_scale_kernel_eq_skeleton]; unfold cc1__linear_scale_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]; · iexists f0; iframe; ipureintro; rfl
  isplitl [H1]; · iexists f1; iframe; ipureintro; rfl
  isplitl [H2]; · iexists f2; iframe; ipureintro; rfl
  iexists _; isplitr
  swap; · iexact H3
  ipureintro
  exact View.read_writes_eq_canon _ _ _ (whole1_3 _)

theorem held1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨?_, ?_, ?_⟩ <;> intro d <;>
    exact ((dat1 V c).before_in_eq_fetched _ rfl (fun _ => rfl) (fun _ _ _ => rfl) (fun _ => rfl) t d).trans rfl

def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body1_at (c : Dev nD) (t : Fin cfg1.N) :
    enter1 V c t ⊢ wp frame (wpE (defs₀ (F := F)) Variants.none c none) Set.univ (bodyAt1 t) (fun _ => leave1 V c t) := by
  unfold enter1 leave1 bodyAt1
  simp only [(held1 V c _).1, (held1 V c _).2.1, (held1 V c _).2.2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (layer1_runs c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact body1_at V c t

end Cert.Kernel.Hand

end
-- ==== Proof.KBReg2.lean ====
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import proofs.«405176_j18674517803330_2_alg».proof.Proof.KBDefs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tiles2_4 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem triple2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__combine_full_kernel i arg1 harg1 arg2 harg2 arg3 harg3 arg4 harg4 arg5 harg5) K := by
  simp only [cc2__combine_full_kernel_eq_skeleton]; unfold cc2__combine_full_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; isplitr
  swap; · iexact H4
  ipureintro
  exact View.read_writes_eq_canon _ _ _ (tiles2_4 _)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem held2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) := by
  refine ⟨?_, ?_, ?_, ?_⟩ <;> intro d <;>
    exact ((dat2 V c).before_in_eq_fetched _ rfl (fun _ => rfl) (fun _ _ _ => rfl) (fun _ => rfl) t d).trans rfl

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem at_point2 (c : Dev nD) (t : Fin cfg2.N) :
    pre2 V c t ⊢ wp frame (wpE (defs₀ (F := F)) Variants.none c none) Set.univ (bodyAt2 t) (fun _ => post2 V c t) := by
  unfold pre2 post2 bodyAt2
  simp only [(held2 V c _).1, (held2 V c _).2.1, (held2 V c _).2.2.1, (held2 V c _).2.2.2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (triple2 c Set.univ _ _ _ _ _ _ _ _ _ _ _ (iblk2 V c 0 t) (iblk2 V c 1 t) (iblk2 V c 2 t) (iblk2 V c 3 t) _)
  iframe H0 H1 H2 H3
  isplitl [H4]; · iexists _; iexact H4
  iintro ⟨H0, H1, H2, H3, H4⟩
  iframe

theorem body_obligation2 (c : Dev nD) : BodyObligation (dat2 (F := F) V c) (defs₀ (F := F)) Variants.none () Set.univ := fun t => by
  rw [bigSep_W2, bigSep_W2]
  exact at_point2 V c t

end Cert.Kernel.Hand

end
-- ==== Proof.KBReg3.lean ====
import proofs.«405176_j18674517803330_2_alg».proof.Proof.KBDefs
import proofs.«405176_j18674517803330_2_alg».proof.Proof.KBReg1
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem layer3_runs (c : Dev nD) (E : Set ℕ) (i : grid3.Coords)
    (a0 : Memref sig .tc .vmem S2000x128 .f32) (h0 : a0.IsWhole)
    (a1 : Memref sig .tc .vmem S128x128 .f32) (h1 : a1.IsWhole)
    (a2 : Memref sig .tc .vmem S2000x1 .f32) (h2 : a2.IsWhole)
    (a3 : Memref sig .tc .vmem S2000x128 .f32) (h3 : a3.IsWhole)
    (x0 : Vec F S2000x128 .f32) (x1 : Vec F S128x128 .f32) (x2 : Vec F S2000x1 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (out3_3 x0 x1 x2)) -∗ K ⟨⟩))
      ⊢ wp frame (wpE (defs₀ (F := F)) Variants.none c none) E (cc3__linear_scale_kernel i a0 h0 a1 h1 a2 h2 a3 h3) K :=
  layer1_runs c E i a0 h0 a1 h1 a2 h2 a3 h3 x0 x1 x2 K

theorem held3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) := by
  refine ⟨?_, ?_, ?_⟩ <;> intro d <;>
    exact ((dat3 V c).before_in_eq_fetched _ rfl (fun _ => rfl) (fun _ _ _ => rfl) (fun _ => rfl) t d).trans rfl

def enter3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def leave3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem body3_at (c : Dev nD) (t : Fin cfg3.N) :
    enter3 V c t ⊢ wp frame (wpE (defs₀ (F := F)) Variants.none c none) Set.univ (bodyAt3 t) (fun _ => leave3 V c t) := by
  unfold enter3 leave3 bodyAt3
  simp only [(held3 V c _).1, (held3 V c _).2.1, (held3 V c _).2.2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (layer3_runs c Set.univ _ _ _ _ _ _ _ _ _ (iblk3 V c 0 t) (iblk3 V c 1 t) (iblk3 V c 2 t) _)
  iframe H0 H1 H2
  isplitl [H3]; · iexists _; iexact H3
  iintro ⟨H0, H1, H2, H3⟩
  iframe

theorem body_obligation3 (c : Dev nD) : BodyObligation (dat3 (F := F) V c) (defs₀ (F := F)) Variants.none () Set.univ := fun t => by
  rw [bigSep_W3, bigSep_W3]
  exact body3_at V c t

end Cert.Kernel.Hand

end
-- ==== Proof.KBReg4.lean ====
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import proofs.«405176_j18674517803330_2_alg».proof.Proof.KBDefs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tiles4_4 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem triple4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__combine_full_kernel i arg1 harg1 arg2 harg2 arg3 harg3 arg4 harg4 arg5 harg5) K := by
  simp only [cc4__combine_full_kernel_eq_skeleton]; unfold cc4__combine_full_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; isplitr
  swap; · iexact H4
  ipureintro
  exact View.read_writes_eq_canon _ _ _ (tiles4_4 _)

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem held4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) := by
  refine ⟨?_, ?_, ?_, ?_⟩ <;> intro d <;>
    exact ((dat4 V c).before_in_eq_fetched _ rfl (fun _ => rfl) (fun _ _ _ => rfl) (fun _ => rfl) t d).trans rfl

def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem at_point4 (c : Dev nD) (t : Fin cfg4.N) :
    pre4 V c t ⊢ wp frame (wpE (defs₀ (F := F)) Variants.none c none) Set.univ (bodyAt4 t) (fun _ => post4 V c t) := by
  unfold pre4 post4 bodyAt4
  simp only [(held4 V c _).1, (held4 V c _).2.1, (held4 V c _).2.2.1, (held4 V c _).2.2.2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (triple4 c Set.univ _ _ _ _ _ _ _ _ _ _ _ (iblk4 V c 0 t) (iblk4 V c 1 t) (iblk4 V c 2 t) (iblk4 V c 3 t) _)
  iframe H0 H1 H2 H3
  isplitl [H4]; · iexists _; iexact H4
  iintro ⟨H0, H1, H2, H3, H4⟩
  iframe

theorem body_obligation4 (c : Dev nD) : BodyObligation (dat4 (F := F) V c) (defs₀ (F := F)) Variants.none () Set.univ := fun t => by
  rw [bigSep_W4, bigSep_W4]
  exact at_point4 V c t

end Cert.Kernel.Hand

end
-- ==== Proof.KBReg5.lean ====
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import Idealize.ShloMosaic.Lib.Pipeline.FrameBody
import Idealize.ShloMosaic.Lib.Ring
import Idealize.ShloMosaic.Lib.Tactic
import proofs.«405176_j18674517803330_2_alg».proof.Proof.KBDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (scAt5 V c t.val t.isLt) (iblk5 V c 2 t) (iblk5 V c 3 t) (iblk5 V c 4 t) := by dsimp only [dat5]

theorem held5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) := by
  refine ⟨?_, ?_, ?_, ?_, ?_⟩ <;> intro d <;>
    exact ((dat5 V c).before_in_eq_fetched _ rfl (fun _ => rfl) (fun _ _ _ => rfl) (fun _ => rfl) t d).trans rfl

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem hcond5_1 : ∀ t : Fin cfg5.N, cond5_1 (grid5.coords t) ↔ t.val = 24 :=
  (by decide +kernel : ∀ t : Fin grid5.N, cond5_1 (grid5.coords t) ↔ t.val = 24)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel

theorem idleAt5_5 : ∀ t : Fin cfg5.N, ¬cond5_1 (grid5.coords t) → cfg5.idle 5 (grid5.coords t) = true := by decide +kernel
theorem noFlush5_5 : ∀ t : Fin cfg5.N, ¬cond5_1 (grid5.coords t) → (cfg5.win 5).flush t = false := by decide +kernel

theorem liveAt5_5 : ∀ t : Fin cfg5.N, cond5_1 (grid5.coords t) → cfg5.idle 5 (grid5.coords t) = false := by decide +kernel

theorem cover5_E (p : Vec F S512x128 .f32) (y : S512x128.Idx) :
    ∃ pc ∈ ([⟨rE, p⟩] : List (View.Piece (Elt F) S512x128 .f32)), y ∈ pc.1.set :=
  View.cover_of_tiled [⟨rE, p⟩] S512x128.size (by rfl) y

theorem cover5_J (p : Vec F S512x2 .f32) (y : S512x2.Idx) :
    ∃ pc ∈ ([⟨rJ, p⟩] : List (View.Piece (Elt F) S512x2 .f32)), y ∈ pc.1.set :=
  View.cover_of_tiled [⟨rJ, p⟩] S512x2.size (by rfl) y

theorem read_writes_whole5_E (v : View sig .tc .vmem S512x128 .f32) (f : v.ty.Contents (Elt F)) (p : Vec F S512x128 .f32)
    (L : List (View.Piece (Elt F) S512x128 .f32)) :
    v.read (Elt F) (v.writes (Elt F) f (⟨rE, p⟩ :: L)) = View.canon [⟨rE, p⟩] :=
  (View.read_writes_of_cover_last v f v f ⟨rE, p⟩ L [] (fun y => by
      obtain ⟨pc, hm, hy⟩ := cover5_E p y
      rw [List.mem_singleton] at hm; subst hm; exact hy)).trans
    (View.read_writes_eq_canon v f [⟨rE, p⟩] (cover5_E p))

section Cases

variable (c : Dev nD) (E : Set ℕ) (i : grid5.Coords)
  (arg1 : Memref sig .tc .vmem S2000x128 .f32) (harg1 : arg1.IsWhole) (arg2 : Memref sig .tc .vmem S2000x1 .i32) (harg2 : arg2.IsWhole)
  (arg3 : Memref sig .tc .vmem S512x1 .f32) (harg3 : arg3.IsWhole) (arg4 : Memref sig .tc .vmem S128x2 .f32) (harg4 : arg4.IsWhole)
  (arg5 : Memref sig .tc .vmem S1x2 .f32) (harg5 : arg5.IsWhole) (arg6 : Memref sig .tc .vmem S512x2 .f32) (harg6 : arg6.IsWhole)
  (arg7 : Memref sig .tc .vmem S512x128 .f32) (harg7 : arg7.IsWhole)
  (x0 : Vec F S2000x128 .f32) (x1 : Vec F S2000x1 .i32) (x2 : Vec F S512x1 .f32) (x3 : Vec F S128x2 .f32) (x4 : Vec F S1x2 .f32)

set_option maxHeartbeats 1000000 in

theorem sound_kernel5_A (hc0 : cond5_0 i) (hc1 : ¬cond5_1 i) (xi5 : Vec F S512x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare (acc5 x1 x0 (View.ld (View.canon [⟨rE, k5_pay1 (F := F)⟩]) rE))) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact HS
  ipureintro
  unfold sound_kernel5_A.sl.v15 sound_kernel5_A.sl.HS_1
  rw [View.readCov_eq_canon_ld _ _ rE (cover5_E _)]
  exact read_writes_whole5_E _ _ _ _

set_option maxHeartbeats 1000000 in

theorem sound_kernel5_B (hc0 : ¬cond5_0 i) (hc1 : ¬cond5_1 i) (xi5 : Vec F S512x2 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare (acc5 x1 x0 (View.ld xs rE))) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact HS
  ipureintro
  exact View.read_writes_eq_canon _ _ _ (cover5_E _)

set_option maxHeartbeats 1000000 in

theorem sound_kernel5_C (hc0 : ¬cond5_0 i) (hc1 : cond5_1 i) (xs : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_5 (acc5 x1 x0 (View.ld xs rE)) x2 x3 x4)
        ∗ owns (c : Thread nD τ) arg7 fullShare (acc5 x1 x0 (View.ld xs rE))) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  unfold sound_kernel5_C.sl.v23 sound_kernel5_C.sl.HS_1
  isplitl [H5]
  · iexists _; isplitr
    swap; · iexact H5
    ipureintro
    rw [View.readCov_eq_canon_ld _ _ rE (cover5_E _)]
    exact View.read_writes_eq_canon _ _ _ (cover5_J _)
  iexists _; isplitr
  swap; · iexact HS
  ipureintro
  exact View.read_writes_eq_canon _ _ _ (cover5_E _)

end Cases

theorem scAt5_first (c : Dev nD) (t : Fin cfg5.N) (hz : t.val = 0) :
    scAt5 V c t.val t.isLt = acc5 (iblk5 V c 1 t) (iblk5 V c 0 t) (View.ld (View.canon [⟨rE, k5_pay1 (F := F)⟩]) rE) := by
  obtain ⟨n, hn⟩ := t
  cases n with
  | zero => rfl
  | succ n => exact absurd hz (Nat.succ_ne_zero n)

theorem scAt5_later (c : Dev nD) (t : Fin cfg5.N) (hz : t.val ≠ 0) :
    scAt5 V c t.val t.isLt = acc5 (iblk5 V c 1 t) (iblk5 V c 0 t)
      (View.ld (scAt5 V c (t.val - 1) (Nat.lt_of_le_of_lt (Nat.sub_le _ _) t.isLt)) rE) := by
  obtain ⟨n, hn⟩ := t
  cases n with
  | zero => exact absurd rfl hz
  | succ n => rfl

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (scAt5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (scAt5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

theorem PhiS5_castSucc (c : Dev nD) (t : Fin cfg5.N) :
    (dat5 V c).Φ t.castSucc = PhiS5 V c t.val (Nat.le_of_lt t.isLt) := by
  dsimp only [dat5]; simp only [Fin.coe_castSucc]

theorem PhiA5_eq (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [(held5 V c _).1, (held5 V c _).2.1, (held5 V c _).2.2.1, (held5 V c _).2.2.2.1, (held5 V c _).2.2.2.2]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (st5_0 t) fullShare ((dat5 V c).after 0 t) from by
        unfold Dat.leavesExact; rw [liveAt5_0 t], after5_0]
  rw [show (dat5 V c).leavesExact 1 t = owns (c : Thread nD τ) (st5_1 t) fullShare ((dat5 V c).after 1 t) from by
        unfold Dat.leavesExact; rw [liveAt5_1 t], after5_1]
  rw [show (dat5 V c).leavesExact 2 t = owns (c : Thread nD τ) (st5_2 t) fullShare ((dat5 V c).after 2 t) from by
        unfold Dat.leavesExact; rw [liveAt5_2 t], after5_2]
  rw [show (dat5 V c).leavesExact 3 t = owns (c : Thread nD τ) (st5_3 t) fullShare ((dat5 V c).after 3 t) from by
        unfold Dat.leavesExact; rw [liveAt5_3 t], after5_3]
  rw [show (dat5 V c).leavesExact 4 t = owns (c : Thread nD τ) (st5_4 t) fullShare ((dat5 V c).after 4 t) from by
        unfold Dat.leavesExact; rw [liveAt5_4 t], after5_4]
  by_cases h0 : t.val = 0
  · have h1 : ¬t.val = 24 := by omega
    rw [Dat.leavesExact_idle (dat5 V c) 5 t (idleAt5_5 t (fun h => h1 ((hcond5_1 t).mp h))) (noFlush5_5 t (fun h => h1 ((hcond5_1 t).mp h)))]
    rw [scAt5_first V c t h0]
    rw [PhiS5_castSucc V c t, PhiS5_zero V c _ _ h0, PhiA5_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel5_A c Set.univ (grid5.coords t) _ _ _ _ _ _ _ _ _ _ _ _ _ _ (iblk5 V c 0 t) (iblk5 V c 1 t) (iblk5 V c 2 t) (iblk5 V c 3 t) (iblk5 V c 4 t)
      ((hcond5_0 t).mpr h0) (fun h => h1 ((hcond5_1 t).mp h)) _ _)
    iframe H0 H1 H2 H3 H4 H5 HS
    iintro ⟨H0, H1, H2, H3, H4, H5, HS⟩
    iframe HS HR Hg Ho H0 H1 H2 H3 H4
    iexists _; iexact H5
  · by_cases h1 : t.val = 24
    · rw [show (dat5 V c).leavesExact 5 t = owns (c : Thread nD τ) (st5_5 t) fullShare ((dat5 V c).after 5 t) from by
        unfold Dat.leavesExact; rw [liveAt5_5 t ((hcond5_1 t).mpr h1)], after5_5]
      rw [scAt5_later V c t h0]
      rw [PhiS5_castSucc V c t, PhiS5_pos V c _ _ h0]
      iintro ⟨⟨HS, HR, Hg⟩, Ho, ⟨%d0, H0⟩, ⟨%d1, H1⟩, ⟨%d2, H2⟩, ⟨%d3, H3⟩, ⟨%d4, H4⟩, ⟨%d5, H5⟩⟩
      iapply (sound_kernel5_C c Set.univ (grid5.coords t) _ _ _ _ _ _ _ _ _ _ _ _ _ _ (iblk5 V c 0 t) (iblk5 V c 1 t) (iblk5 V c 2 t) (iblk5 V c 3 t) (iblk5 V c 4 t)
        (fun h => h0 ((hcond5_0 t).mp h)) ((hcond5_1 t).mpr h1) _ _)
      iframe H0 H1 H2 H3 H4
      isplitl [H5]; · iexists _; iexact H5
      isplitl [HS]; · iexact HS
      iintro ⟨H0, H1, H2, H3, H4, H5, HS⟩
      iframe HS HR Hg Ho H0 H1 H2 H3 H4
      iexact H5
    · rw [Dat.leavesExact_idle (dat5 V c) 5 t (idleAt5_5 t (fun h => h1 ((hcond5_1 t).mp h))) (noFlush5_5 t (fun h => h1 ((hcond5_1 t).mp h)))]
      rw [scAt5_later V c t h0]
      rw [PhiS5_castSucc V c t, PhiS5_pos V c _ _ h0]
      iintro ⟨⟨HS, HR, Hg⟩, Ho, ⟨%d0, H0⟩, ⟨%d1, H1⟩, ⟨%d2, H2⟩, ⟨%d3, H3⟩, ⟨%d4, H4⟩, ⟨%d5, H5⟩⟩
      iapply (sound_kernel5_B c Set.univ (grid5.coords t) _ _ _ _ _ _ _ _ _ _ _ _ _ _ (iblk5 V c 0 t) (iblk5 V c 1 t) (iblk5 V c 2 t) (iblk5 V c 3 t) (iblk5 V c 4 t)
        (fun h => h0 ((hcond5_0 t).mp h)) (fun h => h1 ((hcond5_1 t).mp h)) _ _ _)
      iframe H0 H1 H2 H3 H4 H5 HS
      iintro ⟨H0, H1, H2, H3, H4, H5, HS⟩
      iframe HS HR Hg Ho H0 H1 H2 H3 H4
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨HS, HR, Hg⟩
  isplitl [HS HR]
  · isplitl [HS]
    · iexists _; iexact HS
    iexact HR
  iexact Hg

theorem hout5 (c : Dev nD) : (dat5 V c).Φ (Fin.last cfg5.N) ⊢ Pipeline.ΦA spec5 c :=
  Phi5_out V c _ (by rw [Fin.val_last]; have : cfg5.N = 25 := N_5; omega)

end Cert.Kernel.Hand

end
-- ==== Proof.KBRun.lean ====
import proofs.«405176_j18674517803330_2_alg».proof.Proof.Gen.Kernel.Launch
import proofs.«405176_j18674517803330_2_alg».proof.Proof.Gen.Kernel.Skeleton
import proofs.«405176_j18674517803330_2_alg».proof.Proof.Gen.Kernel.Points
import Idealize.ShloMosaic.Lib.Pipeline.FrameBody
import Idealize.ShloMosaic.Lib.Ring
import Idealize.ShloMosaic.Lib.Tactic
import proofs.«405176_j18674517803330_2_alg».proof.Proof.KBDefs
import proofs.«405176_j18674517803330_2_alg».proof.Proof.KBReg0
import proofs.«405176_j18674517803330_2_alg».proof.Proof.KBReg1
import proofs.«405176_j18674517803330_2_alg».proof.Proof.KBReg2
import proofs.«405176_j18674517803330_2_alg».proof.Proof.KBReg3
import proofs.«405176_j18674517803330_2_alg».proof.Proof.KBReg4
import proofs.«405176_j18674517803330_2_alg».proof.Proof.KBReg5
import proofs.«405176_j18674517803330_2_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vr (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)

def o33 (c : Dev nD) : Buf (Elt F) ((c : Thread nD τ).loc main_v33) := (dat0 (Vr (W1 m)) c).arrAt 3 cfg0.N
abbrev W2 (c : Dev nD) : Valuation τ sig (Elt F) := Function.update (W1 m c) main_v33 (o33 m c)
def o34 (c : Dev nD) : Buf (Elt F) ((c : Thread nD τ).loc main_v34) := (dat1 (Vr (W2 m)) c).arrAt 3 cfg1.N
abbrev W3 (c : Dev nD) : Valuation τ sig (Elt F) := Function.update (W2 m c) main_v34 (o34 m c)
abbrev W4 (c : Dev nD) : Valuation τ sig (Elt F) := StableHlo.after hostOps2 (W3 m c)
def o46 (c : Dev nD) : Buf (Elt F) ((c : Thread nD τ).loc main_v46) := (dat2 (Vr (W4 m)) c).arrAt 4 cfg2.N
abbrev W5 (c : Dev nD) : Valuation τ sig (Elt F) := Function.update (W4 m c) main_v46 (o46 m c)
def o47 (c : Dev nD) : Buf (Elt F) ((c : Thread nD τ).loc main_v47) := (dat3 (Vr (W5 m)) c).arrAt 3 cfg3.N
abbrev W6 (c : Dev nD) : Valuation τ sig (Elt F) := Function.update (W5 m c) main_v47 (o47 m c)
abbrev W7 (c : Dev nD) : Valuation τ sig (Elt F) := StableHlo.after hostOps4 (W6 m c)
def o59 (c : Dev nD) : Buf (Elt F) ((c : Thread nD τ).loc main_v59) := (dat4 (Vr (W7 m)) c).arrAt 4 cfg4.N
abbrev W8 (c : Dev nD) : Valuation τ sig (Elt F) := Function.update (W7 m c) main_v59 (o59 m c)
abbrev W9 (c : Dev nD) : Valuation τ sig (Elt F) := StableHlo.after hostOps5 (W8 m c)
def o76 (c : Dev nD) : Buf (Elt F) ((c : Thread nD τ).loc main_v76) := (dat5 (Vr (W9 m)) c).arrAt 5 cfg5.N
abbrev W10 (c : Dev nD) : Valuation τ sig (Elt F) := Function.update (W9 m c) main_v76 (o76 m c)
abbrev W11 (c : Dev nD) : Valuation τ sig (Elt F) := StableHlo.after hostOps6 (W10 m c)

def outs : Outs (F := F) := fun J r c => match J with
  | 2 => W2 m c r | 3 => W3 m c r | 5 => W5 m c r | 6 => W6 m c r | 8 => W8 m c r | 10 => W10 m c r | _ => W11 m c r

theorem V2_eq (c : Dev nD) : V2 m (outs m) c = W2 m c := by
  show Function.update (V1 m c) main_v33 (W2 m c main_v33) = _
  rw [show W2 m c main_v33 = o33 m c from Function.update_self _ _ _]
theorem V3_eq (c : Dev nD) : V3 m (outs m) c = W3 m c := by
  show Function.update (V2 m (outs m) c) main_v34 (W3 m c main_v34) = _
  rw [V2_eq, show W3 m c main_v34 = o34 m c from Function.update_self _ _ _]
theorem V4_eq (c : Dev nD) : V4 m (outs m) c = W4 m c := by
  show StableHlo.after hostOps2 (V3 m (outs m) c) = _; rw [V3_eq]
theorem V5_eq (c : Dev nD) : V5 m (outs m) c = W5 m c := by
  show Function.update (V4 m (outs m) c) main_v46 (W5 m c main_v46) = _
  rw [V4_eq, show W5 m c main_v46 = o46 m c from Function.update_self _ _ _]
theorem V6_eq (c : Dev nD) : V6 m (outs m) c = W6 m c := by
  show Function.update (V5 m (outs m) c) main_v47 (W6 m c main_v47) = _
  rw [V5_eq, show W6 m c main_v47 = o47 m c from Function.update_self _ _ _]
theorem V7_eq (c : Dev nD) : V7 m (outs m) c = W7 m c := by
  show StableHlo.after hostOps4 (V6 m (outs m) c) = _; rw [V6_eq]
theorem V8_eq (c : Dev nD) : V8 m (outs m) c = W8 m c := by
  show Function.update (V7 m (outs m) c) main_v59 (W8 m c main_v59) = _
  rw [V7_eq, show W8 m c main_v59 = o59 m c from Function.update_self _ _ _]
theorem V9_eq (c : Dev nD) : V9 m (outs m) c = W9 m c := by
  show StableHlo.after hostOps5 (V8 m (outs m) c) = _; rw [V8_eq]
theorem V10_eq (c : Dev nD) : V10 m (outs m) c = W10 m c := by
  show Function.update (V9 m (outs m) c) main_v76 (W10 m c main_v76) = _
  rw [V9_eq, show W10 m c main_v76 = o76 m c from Function.update_self _ _ _]
theorem V11_eq (c : Dev nD) : V11 m (outs m) c = W11 m c := by
  show StableHlo.after hostOps6 (V10 m (outs m) c) = _; rw [V10_eq]

def pdats : (p : Fin 6) → (c : Dev nD) → Dat τ (Elt F) Unit ℕ (UR sig nD τ) ℕ (cfgs p) c
  | ⟨0, _⟩ => fun c => dat0 (Vr (W1 m)) c
  | ⟨1, _⟩ => fun c => dat1 (Vr (W2 m)) c
  | ⟨2, _⟩ => fun c => dat2 (Vr (W4 m)) c
  | ⟨3, _⟩ => fun c => dat3 (Vr (W5 m)) c
  | ⟨4, _⟩ => fun c => dat4 (Vr (W7 m)) c
  | ⟨5, _⟩ => fun c => dat5 (Vr (W9 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
/-- The six regions differ only in their proof data, their two valuations and the two ends of their invariant. -/
def mkReg (p : Fin 6) (lf : Pipeline.LaunchFacts (nD := nD) (τ := τ) cfgs p) (Wi Wo : Dev nD → Valuation τ sig (Elt F))
    (hbody : ∀ c, BodyObligation (pdats m p c) (defs₀ (F := F)) Variants.none () Set.univ)
    (hq : ∀ c w, (pdats m p c).share w = fullShare) (howed : ∀ c t, (pdats m p c).owed t = 0) (hrec : ∀ c, (pdats m p c).recorded 0 = Set.univ)
    (hA : ∀ c w, (pdats m p c).A w = Vr Wi c (Pipeline.arrRef (cfgs p).spec w))
    (ow : Fin (cfgs p).W) (hio : ∀ w, w ≠ ow → ((cfgs p).win w).isOut = false)
    (hWo : ∀ c, Wo c = Function.update (Wi c) (Proc.devRef .tc (Pipeline.arrRef (cfgs p).spec ow)) ((pdats m p c).arrAt ow (cfgs p).N))
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (Vr Wi c)
  hentry c := by
    rw [Pipeline.ownSems0_none]
    have hsplit := Pipeline.arrays_of_unscopedBufs (p := p) (pcfgs (F := F)) adm (pdats m) lf.win lf.arr_whole c (hq c) (Vr Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c ▸ trivial)
      iexact HO
    iframe
  hin c := by
    refine BIBase.Entails.trans ?_ (hin c)
    unfold Pipeline.ΦA
    iintro ⟨Hp, -, Hr⟩
    iframe
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hF : ∀ w, (pdats m p c).arrAt w (cfgs p).N = Vr Wo c (Pipeline.arrRef (cfgs p).spec w) := fun w => by
      show _ = Wo c _
      rw [hWo c]
      by_cases hw : w = ow
      · subst hw; exact (Function.update_self (β := fun b => Buf (Elt F) ((c : Thread nD τ).1, b)) _ _ _).symm
      · exact (((pdats m p c).arrAt_in w (hio w hw) _).trans (hA c w)).trans
          (Function.update_of_ne (StableHlo.devRef_ne_of_ne fun e => hw (lf.win.arr_inj e)) _ _).symm
    have hrest : ∀ b, b ∉ Finset.univ.image (Pipeline.arrRef (cfgs p).spec) → Vr Wo c b = Vr Wi c b := fun b hb => by
      show Wo c _ = _
      rw [hWo c]
      exact Function.update_of_ne (StableHlo.devRef_ne_of_ne fun e => hb (Finset.mem_image.mpr ⟨ow, Finset.mem_univ _, e.symm⟩)) _ _
    have hjoin := Pipeline.unscopedBufs_of_arrays (p := p) (pcfgs (F := F)) adm (Ix := Unit) (Name := ℕ) (U := UR sig nD τ) (Lvl := ℕ)
      lf.win lf.arr_whole c (pdats m) (hq c) (Vr Wi c) (Vr Wo c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ Variants.none L lv 0 :=
  mkReg m 0 launch0 (W1 m) (W2 m) (body_obligation0 (Vr (W1 m))) (fun c => (pdats m 0 c).share_full fun _ => rfl) (fun _ _ => rfl) (fun _ => rfl) (fun _ _ => rfl) 3 (by decide) (fun _ => rfl)
    (fun _ => .rfl) (fun _ => .rfl)

def reg1 : Pipeline.RegionSeg (pcfgs (F := F)) adm (pdats m) () defs₀ Variants.none L lv 1 :=
  mkReg m 1 launch1 (W2 m) (W3 m) (body_obligation1 (Vr (W2 m))) (fun c => (pdats m 1 c).share_full fun _ => rfl) (fun _ _ => rfl) (fun _ => rfl) (fun _ _ => rfl) 3 (by decide) (fun _ => rfl)
    (fun _ => .rfl) (fun _ => .rfl)

def reg2 : Pipeline.RegionSeg (pcfgs (F := F)) adm (pdats m) () defs₀ Variants.none L lv 2 :=
  mkReg m 2 launch2 (W4 m) (W5 m) (body_obligation2 (Vr (W4 m))) (fun c => (pdats m 2 c).share_full fun _ => rfl) (fun _ _ => rfl) (fun _ => rfl) (fun _ _ => rfl) 4 (by decide) (fun _ => rfl)
    (fun _ => .rfl) (fun _ => .rfl)

def reg3 : Pipeline.RegionSeg (pcfgs (F := F)) adm (pdats m) () defs₀ Variants.none L lv 3 :=
  mkReg m 3 launch3 (W5 m) (W6 m) (body_obligation3 (Vr (W5 m))) (fun c => (pdats m 3 c).share_full fun _ => rfl) (fun _ _ => rfl) (fun _ => rfl) (fun _ _ => rfl) 3 (by decide) (fun _ => rfl)
    (fun _ => .rfl) (fun _ => .rfl)

def reg4 : Pipeline.RegionSeg (pcfgs (F := F)) adm (pdats m) () defs₀ Variants.none L lv 4 :=
  mkReg m 4 launch4 (W7 m) (W8 m) (body_obligation4 (Vr (W7 m))) (fun c => (pdats m 4 c).share_full fun _ => rfl) (fun _ _ => rfl) (fun _ => rfl) (fun _ _ => rfl) 4 (by decide) (fun _ => rfl)
    (fun _ => .rfl) (fun _ => .rfl)

def reg5 : Pipeline.RegionSeg (pcfgs (F := F)) adm (pdats m) () defs₀ Variants.none L lv 5 :=
  mkReg m 5 launch5 (W9 m) (W10 m) (body_obligation5 (Vr (W9 m))) (fun c => (pdats m 5 c).share_full fun _ => rfl) (fun _ _ => rfl) (fun _ => rfl) (fun _ _ => rfl) 5 (by decide) (fun _ => rfl)
    (hin5 (Vr (W9 m))) (hout5 (Vr (W9 m)))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : R (F := F) c ⊢ (iprop(∃ W, owes (c : Thread nD τ) (0 : CellTallies nD τ sig Unit) W) : sProp 𝕄) := by
  iintro ⟨-, HO⟩; iexact HO

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none L lv (fun _ _ => rfl) ρ (outs m) (pdats m) 0 (fun _ => iprop(emp))
    (initOf (Pipeline.cells cfgs cellOf_inj) (Pipeline.launchToks cfgs cellOf_inj)) hu₀ (fun _ c => R c) (hE0 ρ) (fun c => hE6 c)
    (reg0 m) (fun c => .rfl) (fun c => by rw [V2_eq]; exact .rfl)
    (reg1 m) (fun c => by rw [V2_eq]; exact .rfl) (fun c => by rw [V3_eq]; exact .rfl)
    (reg2 m) (fun c => by rw [V4_eq]; exact .rfl) (fun c => by rw [V5_eq]; exact .rfl)
    (reg3 m) (fun c => by rw [V5_eq]; exact .rfl) (fun c => by rw [V6_eq]; exact .rfl)
    (reg4 m) (fun c => by rw [V7_eq]; exact .rfl) (fun c => by rw [V8_eq]; exact .rfl)
    (reg5 m) (fun c => by rw [V9_eq]; exact .rfl) (fun c => by rw [V10_eq]; exact .rfl)

end Cert.Kernel.Hand

end
-- ==== Proof.KIDefs.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rA : Rect S2000x1 := Rect.unit (s := S2000x1) ![0, 0] S2000x1.size inb_S2000x1_S2000x1_0_0
abbrev rB : Rect S1x128 := Rect.unit (s := S1x128) ![0, 0] S1x128.size inb_S1x128_S1x128_0_0
abbrev rC : Rect S2000x128 := Rect.unit (s := S2000x128) ![0, 0] S2000x128.size inb_S2000x128_S2000x128_0_0
abbrev rD : Rect S128x128 := Rect.unit (s := S128x128) ![0, 0] S128x128.size inb_S128x128_S128x128_0_0
abbrev rE : Rect S512x128 := Rect.unit (s := S512x128) ![0, 0] S512x128.size inb_S512x128_S512x128_0_0
abbrev rG : Rect S512x1 := Rect.unit (s := S512x1) ![0, 0] S512x1.size inb_S512x1_S512x1_0_0
abbrev rH : Rect S128x2 := Rect.unit (s := S128x2) ![0, 0] S128x2.size inb_S128x2_S128x2_0_0
abbrev rI : Rect S1x2 := Rect.unit (s := S1x2) ![0, 0] S1x2.size inb_S1x2_S1x2_0_0
abbrev rJ : Rect S512x2 := Rect.unit (s := S512x2) ![0, 0] S512x2.size inb_S512x2_S512x2_0_0

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S2000x1 .f32) (x1 : Vec F S1x128 .f32) (x2 : Vec F S1x128 .f32) : Vec F S2000x128 .f32 :=
  View.canon [⟨rC, k0_pay1 (View.ld x0 rA) (View.ld x1 rB) (View.ld x2 rB)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S2000x128 .f32) (x1 : Vec F S128x128 .f32) (x2 : Vec F S2000x1 .f32) : Vec F S2000x128 .f32 :=
  View.canon [⟨rC, k1_pay1 (View.ld x0 rC) (View.ld x1 rD) (View.ld x2 rA)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S2000x128 .f32) (x1 : Vec F S2000x128 .f32) (x2 : Vec F S2000x1 .f32) (x3 : Vec F S1x128 .f32) : Vec F S2000x128 .f32 :=
  View.canon [⟨rC, k2_pay1 (View.ld x2 rA) (View.ld x0 rC) (View.ld x1 rC) (View.ld x3 rB)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_3 (x0 : Vec F S2000x128 .f32) (x1 : Vec F S128x128 .f32) (x2 : Vec F S2000x1 .f32) : Vec F S2000x128 .f32 :=
  View.canon [⟨rC, k3_pay1 (View.ld x0 rC) (View.ld x1 rD) (View.ld x2 rA)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_4 (x0 : Vec F S2000x128 .f32) (x1 : Vec F S2000x128 .f32) (x2 : Vec F S2000x1 .f32) (x3 : Vec F S1x128 .f32) : Vec F S2000x128 .f32 :=
  View.canon [⟨rC, k4_pay1 (View.ld x2 rA) (View.ld x0 rC) (View.ld x1 rC) (View.ld x3 rB)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x128 .f32 := Memref.whole cc5_scratch0

def acc5 (xb : Vec F S2000x1 .i32) (xh : Vec F S2000x128 .f32) (s : Vec F S512x128 .f32) : Vec F S512x128 .f32 :=
  View.canon [⟨rE, k5_pay2 (View.ld xb rA) (View.ld xh rC) s⟩]

def scAt5 (c : Dev nD) : (n : ℕ) → n < cfg5.N → Vec F S512x128 .f32
  | 0, hn => acc5 (iblk5 V c 1 ⟨0, hn⟩) (iblk5 V c 0 ⟨0, hn⟩) (View.ld (View.canon [⟨rE, k5_pay1 (F := F)⟩]) rE)
  | n + 1, hn => acc5 (iblk5 V c 1 ⟨n + 1, hn⟩) (iblk5 V c 0 ⟨n + 1, hn⟩) (View.ld (scAt5 c n (Nat.lt_of_succ_lt hn)) rE)

def out5_5 (s : Vec F S512x128 .f32) (x2 : Vec F S512x1 .f32) (x3 : Vec F S128x2 .f32) (x4 : Vec F S1x2 .f32) : Vec F S512x2 .f32 :=
  View.canon [⟨rJ, k5_pay3 (View.ld s rE) (View.ld x2 rG) (View.ld x3 rH) (View.ld x4 rI)⟩]

def PhiS5 (c : Dev nD) : (n : ℕ) → n ≤ cfg5.N → sProp 𝕄
  | 0, _ => Pipeline.ΦA spec5 c
  | n + 1, hn => iprop(owns (c : Thread nD τ) scM5 fullShare (scAt5 V c n hn)
      ∗ Pipeline.scopedRestBut (Ix := Unit) (Name := ℕ) (U := UR sig nD τ) (Lvl := ℕ) (Val := Elt F) spec5 c [cc5_scratch0]
      ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (scAt5 V c t.val t.isLt) (iblk5 V c 2 t) (iblk5 V c 3 t) (iblk5 V c 4 t)
  Φ t := PhiS5 V c t.val (Nat.le_of_lt_succ t.isLt)
  q _ := fullShare
  owed _ := 0

end Cert.KernelIdeal.Hand

end
-- ==== Proof.KIReg0.lean ====
import proofs.«405176_j18674517803330_2_alg».proof.Proof.KIDefs
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem cover0_3 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem sound_kernel0 (c : Dev nD) (E : Set ℕ) (i : grid0.Coords)
    (arg1 : Memref sig .tc .vmem S2000x1 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x1 .f32) (x1 : Vec F S1x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__combine_rank1_kernel i arg1 harg1 arg2 harg2 arg3 harg3 arg4 harg4) K := by
  simp only [cc0__combine_rank1_kernel_eq_skeleton]; unfold cc0__combine_rank1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]; · iexists f0; iframe; ipureintro; rfl
  isplitl [H1]; · iexists f1; iframe; ipureintro; rfl
  isplitl [H2]; · iexists f2; iframe; ipureintro; rfl
  iexists _; isplitr
  swap; · iexact H3
  ipureintro
  exact View.read_writes_eq_canon _ _ _ (cover0_3 _)

theorem held0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) := by
  refine ⟨?_, ?_, ?_⟩ <;> intro d <;>
    exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [(held0 V c _).1, (held0 V c _).2.1, (held0 V c _).2.2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«405176_j18674517803330_2_alg».proof.Proof.KIDefs
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem whole1_3 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem layer1_runs (c : Dev nD) (E : Set ℕ) (i : grid1.Coords)
    (a0 : Memref sig .tc .vmem S2000x128 .f32) (h0 : a0.IsWhole)
    (a1 : Memref sig .tc .vmem S128x128 .f32) (h1 : a1.IsWhole)
    (a2 : Memref sig .tc .vmem S2000x1 .f32) (h2 : a2.IsWhole)
    (a3 : Memref sig .tc .vmem S2000x128 .f32) (h3 : a3.IsWhole)
    (x0 : Vec F S2000x128 .f32) (x1 : Vec F S128x128 .f32) (x2 : Vec F S2000x1 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (out1_3 x0 x1 x2)) -∗ K ⟨⟩))
      ⊢ wp frame (wpE (defs₀ (F := F)) Variants.none c none) E (cc1__linear_scale_kernel i a0 h0 a1 h1 a2 h2 a3 h3) K := by
  simp only [cc1__linear_scale_kernel_eq_skeleton]; unfold cc1__linear_scale_kernel_skel
  unfold owns
  iintro ⟨⟨%f0, %e0, H0⟩, ⟨%f1, %e1, H1⟩, ⟨%f2, %e2, H2⟩, ⟨%d3, %f3, -, H3⟩, Hk⟩
  subst e0; subst e1; subst e2
  sl_exec
  sl_step
  iapply Hk
  isplitl [H0]; · iexists f0; iframe; ipureintro; rfl
  isplitl [H1]; · iexists f1; iframe; ipureintro; rfl
  isplitl [H2]; · iexists f2; iframe; ipureintro; rfl
  iexists _; isplitr
  swap; · iexact H3
  ipureintro
  exact View.read_writes_eq_canon _ _ _ (whole1_3 _)

theorem held1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨?_, ?_, ?_⟩ <;> intro d <;>
    exact ((dat1 V c).before_in_eq_fetched _ rfl (fun _ => rfl) (fun _ _ _ => rfl) (fun _ => rfl) t d).trans rfl

def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem body1_at (c : Dev nD) (t : Fin cfg1.N) :
    enter1 V c t ⊢ wp frame (wpE (defs₀ (F := F)) Variants.none c none) Set.univ (bodyAt1 t) (fun _ => leave1 V c t) := by
  unfold enter1 leave1 bodyAt1
  simp only [(held1 V c _).1, (held1 V c _).2.1, (held1 V c _).2.2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (layer1_runs c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact body1_at V c t

end Cert.KernelIdeal.Hand

end
-- ==== Proof.KIReg2.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import proofs.«405176_j18674517803330_2_alg».proof.Proof.KIDefs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tiles2_4 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem triple2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__combine_full_kernel i arg1 harg1 arg2 harg2 arg3 harg3 arg4 harg4 arg5 harg5) K := by
  simp only [cc2__combine_full_kernel_eq_skeleton]; unfold cc2__combine_full_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; isplitr
  swap; · iexact H4
  ipureintro
  exact View.read_writes_eq_canon _ _ _ (tiles2_4 _)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem held2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) := by
  refine ⟨?_, ?_, ?_, ?_⟩ <;> intro d <;>
    exact ((dat2 V c).before_in_eq_fetched _ rfl (fun _ => rfl) (fun _ _ _ => rfl) (fun _ => rfl) t d).trans rfl

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem at_point2 (c : Dev nD) (t : Fin cfg2.N) :
    pre2 V c t ⊢ wp frame (wpE (defs₀ (F := F)) Variants.none c none) Set.univ (bodyAt2 t) (fun _ => post2 V c t) := by
  unfold pre2 post2 bodyAt2
  simp only [(held2 V c _).1, (held2 V c _).2.1, (held2 V c _).2.2.1, (held2 V c _).2.2.2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (triple2 c Set.univ _ _ _ _ _ _ _ _ _ _ _ (iblk2 V c 0 t) (iblk2 V c 1 t) (iblk2 V c 2 t) (iblk2 V c 3 t) _)
  iframe H0 H1 H2 H3
  isplitl [H4]; · iexists _; iexact H4
  iintro ⟨H0, H1, H2, H3, H4⟩
  iframe

theorem body_obligation2 (c : Dev nD) : BodyObligation (dat2 (F := F) V c) (defs₀ (F := F)) Variants.none () Set.univ := fun t => by
  rw [bigSep_W2, bigSep_W2]
  exact at_point2 V c t

end Cert.KernelIdeal.Hand

end
-- ==== Proof.KIReg3.lean ====
import proofs.«405176_j18674517803330_2_alg».proof.Proof.KIDefs
import proofs.«405176_j18674517803330_2_alg».proof.Proof.KIReg1
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem layer3_runs (c : Dev nD) (E : Set ℕ) (i : grid3.Coords)
    (a0 : Memref sig .tc .vmem S2000x128 .f32) (h0 : a0.IsWhole)
    (a1 : Memref sig .tc .vmem S128x128 .f32) (h1 : a1.IsWhole)
    (a2 : Memref sig .tc .vmem S2000x1 .f32) (h2 : a2.IsWhole)
    (a3 : Memref sig .tc .vmem S2000x128 .f32) (h3 : a3.IsWhole)
    (x0 : Vec F S2000x128 .f32) (x1 : Vec F S128x128 .f32) (x2 : Vec F S2000x1 .f32) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2
            ∗ owns (c : Thread nD τ) a3 fullShare (out3_3 x0 x1 x2)) -∗ K ⟨⟩))
      ⊢ wp frame (wpE (defs₀ (F := F)) Variants.none c none) E (cc3__linear_scale_kernel i a0 h0 a1 h1 a2 h2 a3 h3) K :=
  layer1_runs c E i a0 h0 a1 h1 a2 h2 a3 h3 x0 x1 x2 K

theorem held3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) := by
  refine ⟨?_, ?_, ?_⟩ <;> intro d <;>
    exact ((dat3 V c).before_in_eq_fetched _ rfl (fun _ => rfl) (fun _ _ _ => rfl) (fun _ => rfl) t d).trans rfl

def enter3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def leave3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem body3_at (c : Dev nD) (t : Fin cfg3.N) :
    enter3 V c t ⊢ wp frame (wpE (defs₀ (F := F)) Variants.none c none) Set.univ (bodyAt3 t) (fun _ => leave3 V c t) := by
  unfold enter3 leave3 bodyAt3
  simp only [(held3 V c _).1, (held3 V c _).2.1, (held3 V c _).2.2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (layer3_runs c Set.univ _ _ _ _ _ _ _ _ _ (iblk3 V c 0 t) (iblk3 V c 1 t) (iblk3 V c 2 t) _)
  iframe H0 H1 H2
  isplitl [H3]; · iexists _; iexact H3
  iintro ⟨H0, H1, H2, H3⟩
  iframe

theorem body_obligation3 (c : Dev nD) : BodyObligation (dat3 (F := F) V c) (defs₀ (F := F)) Variants.none () Set.univ := fun t => by
  rw [bigSep_W3, bigSep_W3]
  exact body3_at V c t

end Cert.KernelIdeal.Hand

end
-- ==== Proof.KIReg4.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import proofs.«405176_j18674517803330_2_alg».proof.Proof.KIDefs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tiles4_4 (p : Vec F S2000x128 .f32) (y : S2000x128.Idx) :
    ∃ pc ∈ ([⟨rC, p⟩] : List (View.Piece (Elt F) S2000x128 .f32)), y ∈ pc.1.set :=
  View.cover_of_tiled [⟨rC, p⟩] S2000x128.size (by rfl) y

set_option maxHeartbeats 1000000 in

theorem triple4 (c : Dev nD) (E : Set ℕ) (i : grid4.Coords)
    (arg1 : Memref sig .tc .vmem S2000x128 .f32) (harg1 : arg1.IsWhole) (arg2 : Memref sig .tc .vmem S2000x128 .f32) (harg2 : arg2.IsWhole)
    (arg3 : Memref sig .tc .vmem S2000x1 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S2000x128 .f32) (x2 : Vec F S2000x1 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__combine_full_kernel i arg1 harg1 arg2 harg2 arg3 harg3 arg4 harg4 arg5 harg5) K := by
  simp only [cc4__combine_full_kernel_eq_skeleton]; unfold cc4__combine_full_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; isplitr
  swap; · iexact H4
  ipureintro
  exact View.read_writes_eq_canon _ _ _ (tiles4_4 _)

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem held4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) := by
  refine ⟨?_, ?_, ?_, ?_⟩ <;> intro d <;>
    exact ((dat4 V c).before_in_eq_fetched _ rfl (fun _ => rfl) (fun _ _ _ => rfl) (fun _ => rfl) t d).trans rfl

def pre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def post4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem at_point4 (c : Dev nD) (t : Fin cfg4.N) :
    pre4 V c t ⊢ wp frame (wpE (defs₀ (F := F)) Variants.none c none) Set.univ (bodyAt4 t) (fun _ => post4 V c t) := by
  unfold pre4 post4 bodyAt4
  simp only [(held4 V c _).1, (held4 V c _).2.1, (held4 V c _).2.2.1, (held4 V c _).2.2.2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (triple4 c Set.univ _ _ _ _ _ _ _ _ _ _ _ (iblk4 V c 0 t) (iblk4 V c 1 t) (iblk4 V c 2 t) (iblk4 V c 3 t) _)
  iframe H0 H1 H2 H3
  isplitl [H4]; · iexists _; iexact H4
  iintro ⟨H0, H1, H2, H3, H4⟩
  iframe

theorem body_obligation4 (c : Dev nD) : BodyObligation (dat4 (F := F) V c) (defs₀ (F := F)) Variants.none () Set.univ := fun t => by
  rw [bigSep_W4, bigSep_W4]
  exact at_point4 V c t

end Cert.KernelIdeal.Hand

end
-- ==== Proof.KIReg5.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic
import proofs.«405176_j18674517803330_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (scAt5 V c t.val t.isLt) (iblk5 V c 2 t) (iblk5 V c 3 t) (iblk5 V c 4 t) := by dsimp only [dat5]

theorem held5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) := by
  refine ⟨?_, ?_, ?_, ?_, ?_⟩ <;> intro d <;>
    exact ((dat5 V c).before_in_eq_fetched _ rfl (fun _ => rfl) (fun _ _ _ => rfl) (fun _ => rfl) t d).trans rfl

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem hcond5_1 : ∀ t : Fin cfg5.N, cond5_1 (grid5.coords t) ↔ t.val = 24 :=
  (by decide +kernel : ∀ t : Fin grid5.N, cond5_1 (grid5.coords t) ↔ t.val = 24)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel

theorem idleAt5_5 : ∀ t : Fin cfg5.N, ¬cond5_1 (grid5.coords t) → cfg5.idle 5 (grid5.coords t) = true := by decide +kernel
theorem noFlush5_5 : ∀ t : Fin cfg5.N, ¬cond5_1 (grid5.coords t) → (cfg5.win 5).flush t = false := by decide +kernel

theorem liveAt5_5 : ∀ t : Fin cfg5.N, cond5_1 (grid5.coords t) → cfg5.idle 5 (grid5.coords t) = false := by decide +kernel

theorem cover5_E (p : Vec F S512x128 .f32) (y : S512x128.Idx) :
    ∃ pc ∈ ([⟨rE, p⟩] : List (View.Piece (Elt F) S512x128 .f32)), y ∈ pc.1.set :=
  View.cover_of_tiled [⟨rE, p⟩] S512x128.size (by rfl) y

theorem cover5_J (p : Vec F S512x2 .f32) (y : S512x2.Idx) :
    ∃ pc ∈ ([⟨rJ, p⟩] : List (View.Piece (Elt F) S512x2 .f32)), y ∈ pc.1.set :=
  View.cover_of_tiled [⟨rJ, p⟩] S512x2.size (by rfl) y

theorem read_writes_whole5_E (v : View sig .tc .vmem S512x128 .f32) (f : v.ty.Contents (Elt F)) (p : Vec F S512x128 .f32)
    (L : List (View.Piece (Elt F) S512x128 .f32)) :
    v.read (Elt F) (v.writes (Elt F) f (⟨rE, p⟩ :: L)) = View.canon [⟨rE, p⟩] :=
  (View.read_writes_of_cover_last v f v f ⟨rE, p⟩ L [] (fun y => by
      obtain ⟨pc, hm, hy⟩ := cover5_E p y
      rw [List.mem_singleton] at hm; subst hm; exact hy)).trans
    (View.read_writes_eq_canon v f [⟨rE, p⟩] (cover5_E p))

section Cases

variable (c : Dev nD) (E : Set ℕ) (i : grid5.Coords)
  (arg1 : Memref sig .tc .vmem S2000x128 .f32) (harg1 : arg1.IsWhole) (arg2 : Memref sig .tc .vmem S2000x1 .i32) (harg2 : arg2.IsWhole)
  (arg3 : Memref sig .tc .vmem S512x1 .f32) (harg3 : arg3.IsWhole) (arg4 : Memref sig .tc .vmem S128x2 .f32) (harg4 : arg4.IsWhole)
  (arg5 : Memref sig .tc .vmem S1x2 .f32) (harg5 : arg5.IsWhole) (arg6 : Memref sig .tc .vmem S512x2 .f32) (harg6 : arg6.IsWhole)
  (arg7 : Memref sig .tc .vmem S512x128 .f32) (harg7 : arg7.IsWhole)
  (x0 : Vec F S2000x128 .f32) (x1 : Vec F S2000x1 .i32) (x2 : Vec F S512x1 .f32) (x3 : Vec F S128x2 .f32) (x4 : Vec F S1x2 .f32)

set_option maxHeartbeats 1000000 in

theorem sound_kernel5_A (hc0 : cond5_0 i) (hc1 : ¬cond5_1 i) (xi5 : Vec F S512x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare (acc5 x1 x0 (View.ld (View.canon [⟨rE, k5_pay1 (F := F)⟩]) rE))) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact HS
  ipureintro
  unfold sound_kernel5_A.sl.v15 sound_kernel5_A.sl.HS_1
  rw [View.readCov_eq_canon_ld _ _ rE (cover5_E _)]
  exact read_writes_whole5_E _ _ _ _

set_option maxHeartbeats 1000000 in

theorem sound_kernel5_B (hc0 : ¬cond5_0 i) (hc1 : ¬cond5_1 i) (xi5 : Vec F S512x2 .f32) (xs : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare (acc5 x1 x0 (View.ld xs rE))) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; isplitr
  swap; · iexact HS
  ipureintro
  exact View.read_writes_eq_canon _ _ _ (cover5_E _)

set_option maxHeartbeats 1000000 in

theorem sound_kernel5_C (hc0 : ¬cond5_0 i) (hc1 : cond5_1 i) (xs : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_5 (acc5 x1 x0 (View.ld xs rE)) x2 x3 x4)
        ∗ owns (c : Thread nD τ) arg7 fullShare (acc5 x1 x0 (View.ld xs rE))) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  unfold sound_kernel5_C.sl.v23 sound_kernel5_C.sl.HS_1
  isplitl [H5]
  · iexists _; isplitr
    swap; · iexact H5
    ipureintro
    rw [View.readCov_eq_canon_ld _ _ rE (cover5_E _)]
    exact View.read_writes_eq_canon _ _ _ (cover5_J _)
  iexists _; isplitr
  swap; · iexact HS
  ipureintro
  exact View.read_writes_eq_canon _ _ _ (cover5_E _)

end Cases

theorem scAt5_first (c : Dev nD) (t : Fin cfg5.N) (hz : t.val = 0) :
    scAt5 V c t.val t.isLt = acc5 (iblk5 V c 1 t) (iblk5 V c 0 t) (View.ld (View.canon [⟨rE, k5_pay1 (F := F)⟩]) rE) := by
  obtain ⟨n, hn⟩ := t
  cases n with
  | zero => rfl
  | succ n => exact absurd hz (Nat.succ_ne_zero n)

theorem scAt5_later (c : Dev nD) (t : Fin cfg5.N) (hz : t.val ≠ 0) :
    scAt5 V c t.val t.isLt = acc5 (iblk5 V c 1 t) (iblk5 V c 0 t)
      (View.ld (scAt5 V c (t.val - 1) (Nat.lt_of_le_of_lt (Nat.sub_le _ _) t.isLt)) rE) := by
  obtain ⟨n, hn⟩ := t
  cases n with
  | zero => exact absurd rfl hz
  | succ n => rfl

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (scAt5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (scAt5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

theorem PhiS5_castSucc (c : Dev nD) (t : Fin cfg5.N) :
    (dat5 V c).Φ t.castSucc = PhiS5 V c t.val (Nat.le_of_lt t.isLt) := by
  dsimp only [dat5]; simp only [Fin.coe_castSucc]

theorem PhiA5_eq (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [(held5 V c _).1, (held5 V c _).2.1, (held5 V c _).2.2.1, (held5 V c _).2.2.2.1, (held5 V c _).2.2.2.2]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (st5_0 t) fullShare ((dat5 V c).after 0 t) from by
        unfold Dat.leavesExact; rw [liveAt5_0 t], after5_0]
  rw [show (dat5 V c).leavesExact 1 t = owns (c : Thread nD τ) (st5_1 t) fullShare ((dat5 V c).after 1 t) from by
        unfold Dat.leavesExact; rw [liveAt5_1 t], after5_1]
  rw [show (dat5 V c).leavesExact 2 t = owns (c : Thread nD τ) (st5_2 t) fullShare ((dat5 V c).after 2 t) from by
        unfold Dat.leavesExact; rw [liveAt5_2 t], after5_2]
  rw [show (dat5 V c).leavesExact 3 t = owns (c : Thread nD τ) (st5_3 t) fullShare ((dat5 V c).after 3 t) from by
        unfold Dat.leavesExact; rw [liveAt5_3 t], after5_3]
  rw [show (dat5 V c).leavesExact 4 t = owns (c : Thread nD τ) (st5_4 t) fullShare ((dat5 V c).after 4 t) from by
        unfold Dat.leavesExact; rw [liveAt5_4 t], after5_4]
  by_cases h0 : t.val = 0
  · have h1 : ¬t.val = 24 := by omega
    rw [Dat.leavesExact_idle (dat5 V c) 5 t (idleAt5_5 t (fun h => h1 ((hcond5_1 t).mp h))) (noFlush5_5 t (fun h => h1 ((hcond5_1 t).mp h)))]
    rw [scAt5_first V c t h0]
    rw [PhiS5_castSucc V c t, PhiS5_zero V c _ _ h0, PhiA5_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel5_A c Set.univ (grid5.coords t) _ _ _ _ _ _ _ _ _ _ _ _ _ _ (iblk5 V c 0 t) (iblk5 V c 1 t) (iblk5 V c 2 t) (iblk5 V c 3 t) (iblk5 V c 4 t)
      ((hcond5_0 t).mpr h0) (fun h => h1 ((hcond5_1 t).mp h)) _ _)
    iframe H0 H1 H2 H3 H4 H5 HS
    iintro ⟨H0, H1, H2, H3, H4, H5, HS⟩
    iframe HS HR Hg Ho H0 H1 H2 H3 H4
    iexists _; iexact H5
  · by_cases h1 : t.val = 24
    · rw [show (dat5 V c).leavesExact 5 t = owns (c : Thread nD τ) (st5_5 t) fullShare ((dat5 V c).after 5 t) from by
        unfold Dat.leavesExact; rw [liveAt5_5 t ((hcond5_1 t).mpr h1)], after5_5]
      rw [scAt5_later V c t h0]
      rw [PhiS5_castSucc V c t, PhiS5_pos V c _ _ h0]
      iintro ⟨⟨HS, HR, Hg⟩, Ho, ⟨%d0, H0⟩, ⟨%d1, H1⟩, ⟨%d2, H2⟩, ⟨%d3, H3⟩, ⟨%d4, H4⟩, ⟨%d5, H5⟩⟩
      iapply (sound_kernel5_C c Set.univ (grid5.coords t) _ _ _ _ _ _ _ _ _ _ _ _ _ _ (iblk5 V c 0 t) (iblk5 V c 1 t) (iblk5 V c 2 t) (iblk5 V c 3 t) (iblk5 V c 4 t)
        (fun h => h0 ((hcond5_0 t).mp h)) ((hcond5_1 t).mpr h1) _ _)
      iframe H0 H1 H2 H3 H4
      isplitl [H5]; · iexists _; iexact H5
      isplitl [HS]; · iexact HS
      iintro ⟨H0, H1, H2, H3, H4, H5, HS⟩
      iframe HS HR Hg Ho H0 H1 H2 H3 H4
      iexact H5
    · rw [Dat.leavesExact_idle (dat5 V c) 5 t (idleAt5_5 t (fun h => h1 ((hcond5_1 t).mp h))) (noFlush5_5 t (fun h => h1 ((hcond5_1 t).mp h)))]
      rw [scAt5_later V c t h0]
      rw [PhiS5_castSucc V c t, PhiS5_pos V c _ _ h0]
      iintro ⟨⟨HS, HR, Hg⟩, Ho, ⟨%d0, H0⟩, ⟨%d1, H1⟩, ⟨%d2, H2⟩, ⟨%d3, H3⟩, ⟨%d4, H4⟩, ⟨%d5, H5⟩⟩
      iapply (sound_kernel5_B c Set.univ (grid5.coords t) _ _ _ _ _ _ _ _ _ _ _ _ _ _ (iblk5 V c 0 t) (iblk5 V c 1 t) (iblk5 V c 2 t) (iblk5 V c 3 t) (iblk5 V c 4 t)
        (fun h => h0 ((hcond5_0 t).mp h)) (fun h => h1 ((hcond5_1 t).mp h)) _ _ _)
      iframe H0 H1 H2 H3 H4 H5 HS
      iintro ⟨H0, H1, H2, H3, H4, H5, HS⟩
      iframe HS HR Hg Ho H0 H1 H2 H3 H4
      iexists _; iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi5_out (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨HS, HR, Hg⟩
  isplitl [HS HR]
  · isplitl [HS]
    · iexists _; iexact HS
    iexact HR
  iexact Hg

theorem hout5 (c : Dev nD) : (dat5 V c).Φ (Fin.last cfg5.N) ⊢ Pipeline.ΦA spec5 c :=
  Phi5_out V c _ (by rw [Fin.val_last]; have : cfg5.N = 25 := N_5; omega)

end Cert.KernelIdeal.Hand

end
-- ==== Proof.KIRun.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic
import proofs.«405176_j18674517803330_2_alg».proof.Proof.KIDefs
import proofs.«405176_j18674517803330_2_alg».proof.Proof.KIReg0
import proofs.«405176_j18674517803330_2_alg».proof.Proof.KIReg1
import proofs.«405176_j18674517803330_2_alg».proof.Proof.KIReg2
import proofs.«405176_j18674517803330_2_alg».proof.Proof.KIReg3
import proofs.«405176_j18674517803330_2_alg».proof.Proof.KIReg4
import proofs.«405176_j18674517803330_2_alg».proof.Proof.KIReg5
import proofs.«405176_j18674517803330_2_alg».proof.Proof.KIFrameWide
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vr (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)

def o33 (c : Dev nD) : Buf (Elt F) ((c : Thread nD τ).loc main_v33) := (dat0 (Vr (W1 m)) c).arrAt 3 cfg0.N
abbrev W2 (c : Dev nD) : Valuation τ sig (Elt F) := Function.update (W1 m c) main_v33 (o33 m c)
def o34 (c : Dev nD) : Buf (Elt F) ((c : Thread nD τ).loc main_v34) := (dat1 (Vr (W2 m)) c).arrAt 3 cfg1.N
abbrev W3 (c : Dev nD) : Valuation τ sig (Elt F) := Function.update (W2 m c) main_v34 (o34 m c)
abbrev W4 (c : Dev nD) : Valuation τ sig (Elt F) := StableHlo.after hostOps2 (W3 m c)
def o46 (c : Dev nD) : Buf (Elt F) ((c : Thread nD τ).loc main_v46) := (dat2 (Vr (W4 m)) c).arrAt 4 cfg2.N
abbrev W5 (c : Dev nD) : Valuation τ sig (Elt F) := Function.update (W4 m c) main_v46 (o46 m c)
def o47 (c : Dev nD) : Buf (Elt F) ((c : Thread nD τ).loc main_v47) := (dat3 (Vr (W5 m)) c).arrAt 3 cfg3.N
abbrev W6 (c : Dev nD) : Valuation τ sig (Elt F) := Function.update (W5 m c) main_v47 (o47 m c)
abbrev W7 (c : Dev nD) : Valuation τ sig (Elt F) := StableHlo.after hostOps4 (W6 m c)
def o59 (c : Dev nD) : Buf (Elt F) ((c : Thread nD τ).loc main_v59) := (dat4 (Vr (W7 m)) c).arrAt 4 cfg4.N
abbrev W8 (c : Dev nD) : Valuation τ sig (Elt F) := Function.update (W7 m c) main_v59 (o59 m c)
abbrev W9 (c : Dev nD) : Valuation τ sig (Elt F) := StableHlo.after hostOps5 (W8 m c)
def o76 (c : Dev nD) : Buf (Elt F) ((c : Thread nD τ).loc main_v76) := (dat5 (Vr (W9 m)) c).arrAt 5 cfg5.N
abbrev W10 (c : Dev nD) : Valuation τ sig (Elt F) := Function.update (W9 m c) main_v76 (o76 m c)
abbrev W11 (c : Dev nD) : Valuation τ sig (Elt F) := StableHlo.after hostOps6 (W10 m c)

def outs : Outs (F := F) := fun J r c => match J with
  | 2 => W2 m c r | 3 => W3 m c r | 5 => W5 m c r | 6 => W6 m c r | 8 => W8 m c r | 10 => W10 m c r | _ => W11 m c r

theorem V2_eq (c : Dev nD) : V2 m (outs m) c = W2 m c := by
  show Function.update (V1 m c) main_v33 (W2 m c main_v33) = _
  rw [show W2 m c main_v33 = o33 m c from Function.update_self _ _ _]
theorem V3_eq (c : Dev nD) : V3 m (outs m) c = W3 m c := by
  show Function.update (V2 m (outs m) c) main_v34 (W3 m c main_v34) = _
  rw [V2_eq, show W3 m c main_v34 = o34 m c from Function.update_self _ _ _]
theorem V4_eq (c : Dev nD) : V4 m (outs m) c = W4 m c := by
  show StableHlo.after hostOps2 (V3 m (outs m) c) = _; rw [V3_eq]
theorem V5_eq (c : Dev nD) : V5 m (outs m) c = W5 m c := by
  show Function.update (V4 m (outs m) c) main_v46 (W5 m c main_v46) = _
  rw [V4_eq, show W5 m c main_v46 = o46 m c from Function.update_self _ _ _]
theorem V6_eq (c : Dev nD) : V6 m (outs m) c = W6 m c := by
  show Function.update (V5 m (outs m) c) main_v47 (W6 m c main_v47) = _
  rw [V5_eq, show W6 m c main_v47 = o47 m c from Function.update_self _ _ _]
theorem V7_eq (c : Dev nD) : V7 m (outs m) c = W7 m c := by
  show StableHlo.after hostOps4 (V6 m (outs m) c) = _; rw [V6_eq]
theorem V8_eq (c : Dev nD) : V8 m (outs m) c = W8 m c := by
  show Function.update (V7 m (outs m) c) main_v59 (W8 m c main_v59) = _
  rw [V7_eq, show W8 m c main_v59 = o59 m c from Function.update_self _ _ _]
theorem V9_eq (c : Dev nD) : V9 m (outs m) c = W9 m c := by
  show StableHlo.after hostOps5 (V8 m (outs m) c) = _; rw [V8_eq]
theorem V10_eq (c : Dev nD) : V10 m (outs m) c = W10 m c := by
  show Function.update (V9 m (outs m) c) main_v76 (W10 m c main_v76) = _
  rw [V9_eq, show W10 m c main_v76 = o76 m c from Function.update_self _ _ _]
theorem V11_eq (c : Dev nD) : V11 m (outs m) c = W11 m c := by
  show StableHlo.after hostOps6 (V10 m (outs m) c) = _; rw [V10_eq]

def pdats : (p : Fin 6) → (c : Dev nD) → Dat τ (Elt F) Unit ℕ (UR sig nD τ) ℕ (cfgs p) c
  | ⟨0, _⟩ => fun c => dat0 (Vr (W1 m)) c
  | ⟨1, _⟩ => fun c => dat1 (Vr (W2 m)) c
  | ⟨2, _⟩ => fun c => dat2 (Vr (W4 m)) c
  | ⟨3, _⟩ => fun c => dat3 (Vr (W5 m)) c
  | ⟨4, _⟩ => fun c => dat4 (Vr (W7 m)) c
  | ⟨5, _⟩ => fun c => dat5 (Vr (W9 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
/-- The six regions differ only in their proof data, their two valuations and the two ends of their invariant. -/
def mkReg (p : Fin 6) (lf : Pipeline.LaunchFacts (nD := nD) (τ := τ) cfgs p) (Wi Wo : Dev nD → Valuation τ sig (Elt F))
    (hbody : ∀ c, BodyObligation (pdats m p c) (defs₀ (F := F)) Variants.none () Set.univ)
    (hq : ∀ c w, (pdats m p c).share w = fullShare) (howed : ∀ c t, (pdats m p c).owed t = 0) (hrec : ∀ c, (pdats m p c).recorded 0 = Set.univ)
    (hA : ∀ c w, (pdats m p c).A w = Vr Wi c (Pipeline.arrRef (cfgs p).spec w))
    (ow : Fin (cfgs p).W) (hio : ∀ w, w ≠ ow → ((cfgs p).win w).isOut = false)
    (hWo : ∀ c, Wo c = Function.update (Wi c) (Proc.devRef .tc (Pipeline.arrRef (cfgs p).spec ow)) ((pdats m p c).arrAt ow (cfgs p).N))
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (Vr Wi c)
  hentry c := by
    rw [Pipeline.ownSems0_none]
    have hsplit := Pipeline.arrays_of_unscopedBufs (p := p) (pcfgs (F := F)) adm (pdats m) lf.win lf.arr_whole c (hq c) (Vr Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c ▸ trivial)
      iexact HO
    iframe
  hin c := by
    refine BIBase.Entails.trans ?_ (hin c)
    unfold Pipeline.ΦA
    iintro ⟨Hp, -, Hr⟩
    iframe
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hF : ∀ w, (pdats m p c).arrAt w (cfgs p).N = Vr Wo c (Pipeline.arrRef (cfgs p).spec w) := fun w => by
      show _ = Wo c _
      rw [hWo c]
      by_cases hw : w = ow
      · subst hw; exact (Function.update_self (β := fun b => Buf (Elt F) ((c : Thread nD τ).1, b)) _ _ _).symm
      · exact (((pdats m p c).arrAt_in w (hio w hw) _).trans (hA c w)).trans
          (Function.update_of_ne (StableHlo.devRef_ne_of_ne fun e => hw (lf.win.arr_inj e)) _ _).symm
    have hrest : ∀ b, b ∉ Finset.univ.image (Pipeline.arrRef (cfgs p).spec) → Vr Wo c b = Vr Wi c b := fun b hb => by
      show Wo c _ = _
      rw [hWo c]
      exact Function.update_of_ne (StableHlo.devRef_ne_of_ne fun e => hb (Finset.mem_image.mpr ⟨ow, Finset.mem_univ _, e.symm⟩)) _ _
    have hjoin := Pipeline.unscopedBufs_of_arrays (p := p) (pcfgs (F := F)) adm (Ix := Unit) (Name := ℕ) (U := UR sig nD τ) (Lvl := ℕ)
      lf.win lf.arr_whole c (pdats m) (hq c) (Vr Wi c) (Vr Wo c) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ Variants.none L lv 0 :=
  mkReg m 0 launch0 (W1 m) (W2 m) (body_obligation0 (Vr (W1 m))) (fun c => (pdats m 0 c).share_full fun _ => rfl) (fun _ _ => rfl) (fun _ => rfl) (fun _ _ => rfl) 3 (by decide) (fun _ => rfl)
    (fun _ => .rfl) (fun _ => .rfl)

def reg1 : Pipeline.RegionSeg (pcfgs (F := F)) adm (pdats m) () defs₀ Variants.none L lv 1 :=
  mkReg m 1 launch1 (W2 m) (W3 m) (body_obligation1 (Vr (W2 m))) (fun c => (pdats m 1 c).share_full fun _ => rfl) (fun _ _ => rfl) (fun _ => rfl) (fun _ _ => rfl) 3 (by decide) (fun _ => rfl)
    (fun _ => .rfl) (fun _ => .rfl)

def reg2 : Pipeline.RegionSeg (pcfgs (F := F)) adm (pdats m) () defs₀ Variants.none L lv 2 :=
  mkReg m 2 launch2 (W4 m) (W5 m) (body_obligation2 (Vr (W4 m))) (fun c => (pdats m 2 c).share_full fun _ => rfl) (fun _ _ => rfl) (fun _ => rfl) (fun _ _ => rfl) 4 (by decide) (fun _ => rfl)
    (fun _ => .rfl) (fun _ => .rfl)

def reg3 : Pipeline.RegionSeg (pcfgs (F := F)) adm (pdats m) () defs₀ Variants.none L lv 3 :=
  mkReg m 3 launch3 (W5 m) (W6 m) (body_obligation3 (Vr (W5 m))) (fun c => (pdats m 3 c).share_full fun _ => rfl) (fun _ _ => rfl) (fun _ => rfl) (fun _ _ => rfl) 3 (by decide) (fun _ => rfl)
    (fun _ => .rfl) (fun _ => .rfl)

def reg4 : Pipeline.RegionSeg (pcfgs (F := F)) adm (pdats m) () defs₀ Variants.none L lv 4 :=
  mkReg m 4 launch4 (W7 m) (W8 m) (body_obligation4 (Vr (W7 m))) (fun c => (pdats m 4 c).share_full fun _ => rfl) (fun _ _ => rfl) (fun _ => rfl) (fun _ _ => rfl) 4 (by decide) (fun _ => rfl)
    (fun _ => .rfl) (fun _ => .rfl)

def reg5 : Pipeline.RegionSeg (pcfgs (F := F)) adm (pdats m) () defs₀ Variants.none L lv 5 :=
  mkReg m 5 launch5 (W9 m) (W10 m) (body_obligation5 (Vr (W9 m))) (fun c => (pdats m 5 c).share_full fun _ => rfl) (fun _ _ => rfl) (fun _ => rfl) (fun _ _ => rfl) 5 (by decide) (fun _ => rfl)
    (hin5 (Vr (W9 m))) (hout5 (Vr (W9 m)))

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : R (F := F) c ⊢ (iprop(∃ W, owes (c : Thread nD τ) (0 : CellTallies nD τ sig Unit) W) : sProp 𝕄) := by
  iintro ⟨-, HO⟩; iexact HO

theorem run_all : θ_run defs (onTc (τ := τ) (main (F := F))) ⟨m, fun _ => 0, ρ⟩ (fun r => ∀ c : Dev nD,
      ∀ b ∈ Pipeline.ucRefs τ sig, r.2.mem ((c : Thread nD τ).1, b) = W11 m c b) := by
  have h := frame_cond_wide m emb₁ () Variants.none L lv (fun _ _ => rfl) ρ (outs m) (pdats m) 0 (fun _ => iprop(emp))
    (initOf (Pipeline.cells cfgs cellOf_inj) (Pipeline.launchToks cfgs cellOf_inj)) hu₀ (fun _ c => R c) (hE0 ρ) (fun c => hE6 c)
    (reg0 m) (fun c => .rfl) (fun c => by rw [V2_eq]; exact .rfl)
    (reg1 m) (fun c => by rw [V2_eq]; exact .rfl) (fun c => by rw [V3_eq]; exact .rfl)
    (reg2 m) (fun c => by rw [V4_eq]; exact .rfl) (fun c => by rw [V5_eq]; exact .rfl)
    (reg3 m) (fun c => by rw [V5_eq]; exact .rfl) (fun c => by rw [V6_eq]; exact .rfl)
    (reg4 m) (fun c => by rw [V7_eq]; exact .rfl) (fun c => by rw [V8_eq]; exact .rfl)
    (reg5 m) (fun c => by rw [V9_eq]; exact .rfl) (fun c => by rw [V10_eq]; exact .rfl)
  refine (θ_run defs _ _).mono (fun r h c b hb => ?_) h
  rw [← V11_eq]; exact h c b hb

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none L lv (fun _ _ => rfl) ρ (outs m) (pdats m) 0 (fun _ => iprop(emp))
    (initOf (Pipeline.cells cfgs cellOf_inj) (Pipeline.launchToks cfgs cellOf_inj)) hu₀ (fun _ c => R c) (hE0 ρ) (fun c => hE6 c)
    (reg0 m) (fun c => .rfl) (fun c => by rw [V2_eq]; exact .rfl)
    (reg1 m) (fun c => by rw [V2_eq]; exact .rfl) (fun c => by rw [V3_eq]; exact .rfl)
    (reg2 m) (fun c => by rw [V4_eq]; exact .rfl) (fun c => by rw [V5_eq]; exact .rfl)
    (reg3 m) (fun c => by rw [V5_eq]; exact .rfl) (fun c => by rw [V6_eq]; exact .rfl)
    (reg4 m) (fun c => by rw [V7_eq]; exact .rfl) (fun c => by rw [V8_eq]; exact .rfl)
    (reg5 m) (fun c => by rw [V9_eq]; exact .rfl) (fun c => by rw [V10_eq]; exact .rfl)

end Cert.KernelIdeal.Hand

end
-- ==== Proof.KIThru.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic
import proofs.«405176_j18674517803330_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem keep_1 (c : Dev nD) (r : Ref sig .tc) (h : r ∉ hostOps0_W) : W1 m c r = W0 m c r :=
  StableHlo.after_of_writes_sub hostOps0 _ hostOps0_writes h

theorem keep_2 (c : Dev nD) (r : Ref sig .tc) (h : r ∉ ([main_v33] : List (Ref sig .tc))) : W2 m c r = W1 m c r :=
  Function.update_of_ne (StableHlo.devRef_ne_of_ne (List.ne_of_not_mem_cons h)) _ _

theorem keep_3 (c : Dev nD) (r : Ref sig .tc) (h : r ∉ ([main_v34] : List (Ref sig .tc))) : W3 m c r = W2 m c r :=
  Function.update_of_ne (StableHlo.devRef_ne_of_ne (List.ne_of_not_mem_cons h)) _ _

theorem keep_4 (c : Dev nD) (r : Ref sig .tc) (h : r ∉ hostOps2_W) : W4 m c r = W3 m c r :=
  StableHlo.after_of_writes_sub hostOps2 _ hostOps2_writes h

theorem keep_5 (c : Dev nD) (r : Ref sig .tc) (h : r ∉ ([main_v46] : List (Ref sig .tc))) : W5 m c r = W4 m c r :=
  Function.update_of_ne (StableHlo.devRef_ne_of_ne (List.ne_of_not_mem_cons h)) _ _

theorem keep_6 (c : Dev nD) (r : Ref sig .tc) (h : r ∉ ([main_v47] : List (Ref sig .tc))) : W6 m c r = W5 m c r :=
  Function.update_of_ne (StableHlo.devRef_ne_of_ne (List.ne_of_not_mem_cons h)) _ _

theorem keep_7 (c : Dev nD) (r : Ref sig .tc) (h : r ∉ hostOps4_W) : W7 m c r = W6 m c r :=
  StableHlo.after_of_writes_sub hostOps4 _ hostOps4_writes h

theorem keep_8 (c : Dev nD) (r : Ref sig .tc) (h : r ∉ ([main_v59] : List (Ref sig .tc))) : W8 m c r = W7 m c r :=
  Function.update_of_ne (StableHlo.devRef_ne_of_ne (List.ne_of_not_mem_cons h)) _ _

theorem keep_9 (c : Dev nD) (r : Ref sig .tc) (h : r ∉ hostOps5_W) : W9 m c r = W8 m c r :=
  StableHlo.after_of_writes_sub hostOps5 _ hostOps5_writes h

theorem keep_10 (c : Dev nD) (r : Ref sig .tc) (h : r ∉ ([main_v76] : List (Ref sig .tc))) : W10 m c r = W9 m c r :=
  Function.update_of_ne (StableHlo.devRef_ne_of_ne (List.ne_of_not_mem_cons h)) _ _

theorem keep_11 (c : Dev nD) (r : Ref sig .tc) (h : r ∉ hostOps6_W) : W11 m c r = W10 m c r :=
  StableHlo.after_of_writes_sub hostOps6 _ hostOps6_writes h

abbrev M2 (r : Ref sig .tc) : Prop := r ∉ ([main_v33] : List (Ref sig .tc))
abbrev M3 (r : Ref sig .tc) : Prop := M2 r ∧ r ∉ ([main_v34] : List (Ref sig .tc))
abbrev M4 (r : Ref sig .tc) : Prop := M3 r ∧ r ∉ hostOps2_W
abbrev M5 (r : Ref sig .tc) : Prop := M4 r ∧ r ∉ ([main_v46] : List (Ref sig .tc))
abbrev M6 (r : Ref sig .tc) : Prop := M5 r ∧ r ∉ ([main_v47] : List (Ref sig .tc))
abbrev M7 (r : Ref sig .tc) : Prop := M6 r ∧ r ∉ hostOps4_W
abbrev M8 (r : Ref sig .tc) : Prop := M7 r ∧ r ∉ ([main_v59] : List (Ref sig .tc))
abbrev M9 (r : Ref sig .tc) : Prop := M8 r ∧ r ∉ hostOps5_W
abbrev M10 (r : Ref sig .tc) : Prop := M9 r ∧ r ∉ ([main_v76] : List (Ref sig .tc))
abbrev M11 (r : Ref sig .tc) : Prop := M10 r ∧ r ∉ hostOps6_W

/-- The items are chained once, for an arbitrary buffer; a particular buffer enters only through decided memberships. -/
theorem from1_2 (c : Dev nD) (r : Ref sig .tc) (h : M2 r := by decide) : W2 m c r = W1 m c r := keep_2 m c r h
theorem from1_3 (c : Dev nD) (r : Ref sig .tc) (h : M3 r := by decide) : W3 m c r = W1 m c r :=
  (keep_3 m c r h.2).trans (from1_2 m c r h.1)
theorem from1_4 (c : Dev nD) (r : Ref sig .tc) (h : M4 r := by decide) : W4 m c r = W1 m c r :=
  (keep_4 m c r h.2).trans (from1_3 m c r h.1)
theorem from1_5 (c : Dev nD) (r : Ref sig .tc) (h : M5 r := by decide) : W5 m c r = W1 m c r :=
  (keep_5 m c r h.2).trans (from1_4 m c r h.1)
theorem from1_6 (c : Dev nD) (r : Ref sig .tc) (h : M6 r := by decide) : W6 m c r = W1 m c r :=
  (keep_6 m c r h.2).trans (from1_5 m c r h.1)
theorem from1_7 (c : Dev nD) (r : Ref sig .tc) (h : M7 r := by decide) : W7 m c r = W1 m c r :=
  (keep_7 m c r h.2).trans (from1_6 m c r h.1)
theorem from1_8 (c : Dev nD) (r : Ref sig .tc) (h : M8 r := by decide) : W8 m c r = W1 m c r :=
  (keep_8 m c r h.2).trans (from1_7 m c r h.1)
theorem from1_9 (c : Dev nD) (r : Ref sig .tc) (h : M9 r := by decide) : W9 m c r = W1 m c r :=
  (keep_9 m c r h.2).trans (from1_8 m c r h.1)
theorem from1_10 (c : Dev nD) (r : Ref sig .tc) (h : M10 r := by decide) : W10 m c r = W1 m c r :=
  (keep_10 m c r h.2).trans (from1_9 m c r h.1)
theorem from1_11 (c : Dev nD) (r : Ref sig .tc) (h : M11 r := by decide) : W11 m c r = W1 m c r :=
  (keep_11 m c r h.2).trans (from1_10 m c r h.1)

/-- No operation of the program writes an argument array. -/
theorem arg_1 (c : Dev nD) (r : Ref sig .tc) (h : r ∉ hostOps0_W := by decide) : W1 m c r = m ((c : Thread nD τ).loc r) := keep_1 m c r h
theorem arg_2 (c : Dev nD) (r : Ref sig .tc) (h₁ : r ∉ hostOps0_W := by decide) (h : M2 r := by decide) :
    W2 m c r = m ((c : Thread nD τ).loc r) := (from1_2 m c r h).trans (keep_1 m c r h₁)
theorem arg_3 (c : Dev nD) (r : Ref sig .tc) (h₁ : r ∉ hostOps0_W := by decide) (h : M3 r := by decide) :
    W3 m c r = m ((c : Thread nD τ).loc r) := (from1_3 m c r h).trans (keep_1 m c r h₁)
theorem arg_5 (c : Dev nD) (r : Ref sig .tc) (h₁ : r ∉ hostOps0_W := by decide) (h : M5 r := by decide) :
    W5 m c r = m ((c : Thread nD τ).loc r) := (from1_5 m c r h).trans (keep_1 m c r h₁)
theorem arg_6 (c : Dev nD) (r : Ref sig .tc) (h₁ : r ∉ hostOps0_W := by decide) (h : M6 r := by decide) :
    W6 m c r = m ((c : Thread nD τ).loc r) := (from1_6 m c r h).trans (keep_1 m c r h₁)
theorem arg_8 (c : Dev nD) (r : Ref sig .tc) (h₁ : r ∉ hostOps0_W := by decide) (h : M8 r := by decide) :
    W8 m c r = m ((c : Thread nD τ).loc r) := (from1_8 m c r h).trans (keep_1 m c r h₁)
theorem arg_9 (c : Dev nD) (r : Ref sig .tc) (h₁ : r ∉ hostOps0_W := by decide) (h : M9 r := by decide) :
    W9 m c r = m ((c : Thread nD τ).loc r) := (from1_9 m c r h).trans (keep_1 m c r h₁)
theorem arg_11 (c : Dev nD) (r : Ref sig .tc) (h₁ : r ∉ hostOps0_W := by decide) (h : M11 r := by decide) :
    W11 m c r = m ((c : Thread nD τ).loc r) := (from1_11 m c r h).trans (keep_1 m c r h₁)

theorem thru_2_v33 (c : Dev nD) : W2 m c main_v33 = o33 m c := Function.update_self _ _ _

theorem thru_3_v34 (c : Dev nD) : W3 m c main_v34 = o34 m c := Function.update_self _ _ _

theorem thru_4_v34 (c : Dev nD) : W4 m c main_v34 = o34 m c :=
  (keep_4 m c main_v34 (by decide)).trans (thru_3_v34 m c)

theorem thru_5_v46 (c : Dev nD) : W5 m c main_v46 = o46 m c := Function.update_self _ _ _

theorem thru_6_v47 (c : Dev nD) : W6 m c main_v47 = o47 m c := Function.update_self _ _ _

theorem thru_7_v47 (c : Dev nD) : W7 m c main_v47 = o47 m c :=
  (keep_7 m c main_v47 (by decide)).trans (thru_6_v47 m c)

theorem thru_8_v59 (c : Dev nD) : W8 m c main_v59 = o59 m c := Function.update_self _ _ _

theorem thru_9_v59 (c : Dev nD) : W9 m c main_v59 = o59 m c :=
  (keep_9 m c main_v59 (by decide)).trans (thru_8_v59 m c)

theorem thru_10_v76 (c : Dev nD) : W10 m c main_v76 = o76 m c := Function.update_self _ _ _

end Cert.KernelIdeal.Hand

end
-- ==== Proof.KISpec.lean ====
import proofs.«405176_j18674517803330_2_alg».proof.KernelIdeal
import Idealize.ShloMosaic.PureOps.Ideal
import Idealize.ShloMosaic.Lib.ValueIdx

noncomputable section

namespace Cert.KernelIdeal.Hand

open Cert.KernelIdeal
open Idealize.ShloMosaic Idealize.ShloMosaic.ValueIdx

abbrev zeroW : EReal := Ideal.ofBits .f32 0x00000000#32

def comb1At (t : Vec Ideal S50000x1 .f32) (w b : Vec Ideal S1x128 .f32) (i : Fin 50000) (f : Fin 128) : EReal :=
  max (t (ix2 i 0) * w (ix2 0 f) + b (ix2 0 f)) zeroW

def linAt (h : Vec Ideal S50000x128 .f32) (W : Vec Ideal S128x128 .f32) (d : Vec Ideal S50000x1 .f32) (i : Fin 50000) (f : Fin 128) : EReal :=
  (∑ k : Fin 128, h (ix2 i k) * W (ix2 k f)) * d (ix2 i 0)

def combAt (sc hs : Vec Ideal S50000x128 .f32) (d : Vec Ideal S50000x1 .f32) (b : Vec Ideal S1x128 .f32) (i : Fin 50000) (f : Fin 128) : EReal :=
  d (ix2 i 0) * (sc (ix2 i f) + hs (ix2 i f)) + b (ix2 0 f)

def memberW (bid : BitVec 32) (g : Fin 512) : EReal := if bid = BitVec.ofNat 32 g.val then 1 else 0

def poolAt (h : Vec Ideal S50000x128 .f32) (bt : Vec Ideal S50000x1 .i32) (cnt : Vec Ideal S512x1 .f32) (Wl : Vec Ideal S128x2 .f32)
    (bl : Vec Ideal S1x2 .f32) (g : Fin 512) (o : Fin 2) : EReal :=
  (∑ k : Fin 128, Ideal.div (∑ n : Fin 50000, memberW (bt (ix2 n 0)) g * h (ix2 n k)) (cnt (ix2 g 0)) * Wl (ix2 k o)) + bl (ix2 0 o)

theorem off00 : (![0, 0] : Fin 2 → Nat) = fun _ => 0 := funext fun a => by fin_cases a <;> rfl

end Cert.KernelIdeal.Hand

end
-- ==== Proof.KIHost.lean ====
import proofs.«405176_j18674517803330_2_alg».proof.Proof.Gen.KernelIdeal.Launch
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

def srcOf (ei : Vec Ideal S2x600000 .i32) : Vec Ideal S600000 .i32 :=
  shapeCast S600000 (extractStridedSlice S1x600000 ![0, 0] ei slices_S2x600000_S1x600000_0_0) shapeCasts_S1x600000_S600000

def dstOf (ei : Vec Ideal S2x600000 .i32) : Vec Ideal S600000 .i32 :=
  shapeCast S600000 (extractStridedSlice S1x600000 ![1, 0] ei slices_S2x600000_S1x600000_1_0) shapeCasts_S1x600000_S600000

def wrapN (v : Vec Ideal S600000 .i32) : Vec Ideal S600000 .i32 :=
  select (cmpi .slt v (broadcastInDim S600000 ![] bcast_S_S600000 (constantI S_ 32 0#32)))
    (addi v (broadcastInDim S600000 ![] bcast_S_S600000 (constantI S_ 32 50000#32))) v

def colE (v : Vec Ideal S600000 .i32) : Vec Ideal S600000x1 .i32 :=
  broadcastInDim S600000x1 ![0] bcast_S600000_S600000x1_0 v

def degOf (ei : Vec Ideal S2x600000 .i32) : Vec Ideal S50000 .f32 :=
  addf (F := Ideal) (φ := .f32)
    (Host.scatterAdd (F := Ideal) (φ := .f32) scatter_S50000_S600000x1_S600000_n_0_0_1
      (broadcastInDim S50000 ![] bcast_S_S50000 (constant (F := Ideal) S_ .f32 0x00000000#32))
      (colE (wrapN (dstOf ei)))
      (broadcastInDim S600000 ![] bcast_S_S600000 (constant (F := Ideal) S_ .f32 0x3F800000#32)))
    (broadcastInDim S50000 ![] bcast_S_S50000 (constant (F := Ideal) S_ .f32 0x3F800000#32))

def dinvOf (ei : Vec Ideal S2x600000 .i32) : Vec Ideal S50000 .f32 :=
  Host.rsqrt (F := Ideal) (φ := .f32) (degOf ei)

def xsOf (x : Vec Ideal S50000x1 .f32) (ei : Vec Ideal S2x600000 .i32) : Vec Ideal S50000 .f32 :=
  mulf (F := Ideal) (φ := .f32) (shapeCast S50000 x shapeCasts_S50000x1_S50000) (dinvOf ei)

def tOf (x : Vec Ideal S50000x1 .f32) (ei : Vec Ideal S2x600000 .i32) : Vec Ideal S50000 .f32 :=
  mulf (F := Ideal) (φ := .f32) (dinvOf ei)
    (addf (F := Ideal) (φ := .f32)
      (Host.scatterAdd (F := Ideal) (φ := .f32) scatter_S50000_S600000x1_S600000_n_0_0_1
        (broadcastInDim S50000 ![] bcast_S_S50000 (constant (F := Ideal) S_ .f32 0x00000000#32))
        (colE (dstOf ei))
        (Host.gather gather_S50000_S600000x1_S600000_n_0_n_n_0_1_1 (xsOf x ei) (colE (wrapN (srcOf ei)))))
      (xsOf x ei))

def aggSD (hs : Vec Ideal S50000x128 .f32) (src dst : Vec Ideal S600000 .i32) : Vec Ideal S50000x128 .f32 :=
  Host.scatterAdd (F := Ideal) (φ := .f32) scatter_S50000x128_S600000x1_S600000x128_1_0_0_1
    (broadcastInDim S50000x128 ![] bcast_S_S50000x128 (constant (F := Ideal) S_ .f32 0x00000000#32))
    (colE dst)
    (Host.gather gather_S50000x128_S600000x1_S600000x128_1_0_n_n_0_1_1128 hs (colE (wrapN src)))

def aggOf (hs : Vec Ideal S50000x128 .f32) (ei : Vec Ideal S2x600000 .i32) : Vec Ideal S50000x128 .f32 :=
  aggSD hs (srcOf ei) (dstOf ei)

def wrapG (v : Vec Ideal S50000 .i32) : Vec Ideal S50000 .i32 :=
  select (cmpi .slt v (broadcastInDim S50000 ![] bcast_S_S50000 (constantI S_ 32 0#32)))
    (addi v (broadcastInDim S50000 ![] bcast_S_S50000 (constantI S_ 32 500#32))) v

def cntPadOf (bt : Vec Ideal S50000 .i32) : Vec Ideal S512x1 .f32 :=
  shapeCast S512x1
    (concatenate S512 0
      [⟨S500, maximumf (F := Ideal) (φ := .f32)
          (Host.scatterAdd (F := Ideal) (φ := .f32) scatter_S500_S50000x1_S50000_n_0_0_1
            (broadcastInDim S500 ![] bcast_S_S500 (constant (F := Ideal) S_ .f32 0x00000000#32))
            (broadcastInDim S50000x1 ![0] bcast_S50000_S50000x1_0 (wrapG bt))
            (broadcastInDim S50000 ![] bcast_S_S50000 (constant (F := Ideal) S_ .f32 0x3F800000#32)))
          (broadcastInDim S500 ![] bcast_S_S500 (constant (F := Ideal) S_ .f32 0x3F800000#32))⟩,
       ⟨S12, broadcastInDim S12 ![] bcast_S_S12 (constant (F := Ideal) S_ .f32 0x3F800000#32)⟩]
      concatenates_S500_S12_S512_d0)
    shapeCasts_S512_S512x1

variable (W : Valuation τ sig (Elt Ideal))

theorem host0_v1 : StableHlo.after hostOps0 W main_v1 = srcOf (W main_arg9) := by
  show StableHlo.after hostOps0 W (Proc.devRef .tc main_v1) = _
  after_results
  rfl

theorem host0_v3 : StableHlo.after hostOps0 W main_v3 = dstOf (W main_arg9) := by
  show StableHlo.after hostOps0 W (Proc.devRef .tc main_v3) = _
  after_results
  rfl

theorem host0_v16 : StableHlo.after hostOps0 W main_v16 = shapeCast S50000x1 (dinvOf (W main_arg9)) shapeCasts_S50000_S50000x1 := by
  show StableHlo.after hostOps0 W (Proc.devRef .tc main_v16) = _
  after_results_simp
  rfl

theorem host0_v31 : StableHlo.after hostOps0 W main_v31 = shapeCast S50000x1 (tOf (W main_arg0) (W main_arg9)) shapeCasts_S50000_S50000x1 := by
  show StableHlo.after hostOps0 W (Proc.devRef .tc main_v31) = _
  after_results_simp
  rfl

theorem host0_v32 : StableHlo.after hostOps0 W main_v32 = shapeCast S1x128 (W main_arg2) shapeCasts_S128_S1x128 := by
  show StableHlo.after hostOps0 W (Proc.devRef .tc main_v32) = _
  after_results
  rfl

theorem host2_v44 : StableHlo.after hostOps2 W main_v44 = aggSD (W main_v34) (W main_v1) (W main_v3) := by
  show StableHlo.after hostOps2 W (Proc.devRef .tc main_v44) = _
  after_results_simp
  rfl

theorem host2_v45 : StableHlo.after hostOps2 W main_v45 = shapeCast S1x128 (W main_arg4) shapeCasts_S128_S1x128 := by
  show StableHlo.after hostOps2 W (Proc.devRef .tc main_v45) = _
  after_results
  rfl

theorem host4_v57 : StableHlo.after hostOps4 W main_v57 = aggSD (W main_v47) (W main_v1) (W main_v3) := by
  show StableHlo.after hostOps4 W (Proc.devRef .tc main_v57) = _
  after_results_simp
  rfl

theorem host4_v58 : StableHlo.after hostOps4 W main_v58 = shapeCast S1x128 (W main_arg6) shapeCasts_S128_S1x128 := by
  show StableHlo.after hostOps4 W (Proc.devRef .tc main_v58) = _
  after_results
  rfl

theorem host5_v73 : StableHlo.after hostOps5 W main_v73 = cntPadOf (W main_arg10) := by
  show StableHlo.after hostOps5 W (Proc.devRef .tc main_v73) = _
  after_results_simp
  rfl

theorem host5_v74 : StableHlo.after hostOps5 W main_v74 = shapeCast S50000x1 (W main_arg10) shapeCasts_S50000_S50000x1 := by
  show StableHlo.after hostOps5 W (Proc.devRef .tc main_v74) = _
  after_results
  rfl

theorem host5_v75 : StableHlo.after hostOps5 W main_v75 = shapeCast S1x2 (W main_arg8) shapeCasts_S2_S1x2 := by
  show StableHlo.after hostOps5 W (Proc.devRef .tc main_v75) = _
  after_results
  rfl

theorem host6_v77 : StableHlo.after hostOps6 W main_v77 = extractStridedSlice S500x2 ![0, 0] (W main_v76) slices_S512x2_S500x2_0_0 := by
  show StableHlo.after hostOps6 W (Proc.devRef .tc main_v77) = _
  after_results

end Cert.KernelIdeal.Hand
-- ==== Proof.KIRef.lean ====
import proofs.«405176_j18674517803330_2_alg».proof.Proof.Gen.ReferenceIdeal

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def refSrc (ei : IVec S2x600000 32) : IVec S600000 32 :=
  shapeCast _ (extractStridedSlice S1x600000 ![0, 0] ei slices_S2x600000_S1x600000_0_0) shapeCasts_S1x600000_S600000

def refDst (ei : IVec S2x600000 32) : IVec S600000 32 :=
  shapeCast _ (extractStridedSlice S1x600000 ![1, 0] ei slices_S2x600000_S1x600000_1_0) shapeCasts_S1x600000_S600000

def refWrap (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 50000#32))) v)

def refDinv (ei : IVec S2x600000 32) : FVec F S50000 .f32 :=
  Host.rsqrt (addf
    (Host.scatterAdd scatter_S50000_S600000x1_S600000_n_0_0_1
      (broadcastInDim S50000 ![] bcast_S_S50000 (constant S_ .f32 0x00000000#32))
      (refWrap (refDst ei))
      (broadcastInDim S600000 ![] bcast_S_S600000 (constant S_ .f32 0x3F800000#32)))
    (broadcastInDim S50000 ![] bcast_S_S50000 (constant S_ .f32 0x3F800000#32)))

def refNorm (ei : IVec S2x600000 32) : FVec F S600000 .f32 :=
  mulf (Host.gather gather_S50000_S600000x1_S600000_n_0_n_n_0_1_1 (refDinv (F := F) ei) (refWrap (refSrc ei)))
    (Host.gather gather_S50000_S600000x1_S600000_n_0_n_n_0_1_1 (refDinv (F := F) ei) (refWrap (refDst ei)))

def refAgg (hW : FVec F S50000x128 .f32) (b : FVec F S128 .f32) (ei : IVec S2x600000 32) : FVec F S50000x128 .f32 :=
  addf
    (addf
      (Host.scatterAdd scatter_S50000x128_S600000x1_S600000x128_1_0_0_1
        (broadcastInDim S50000x128 ![] bcast_S_S50000x128 (constant S_ .f32 0x00000000#32))
        (broadcastInDim S600000x1 ![0] bcast_S600000_S600000x1_0 (refDst ei))
        (mulf (Host.gather gather_S50000x128_S600000x1_S600000x128_1_0_n_n_0_1_1128 hW (refWrap (refSrc ei)))
          (broadcastInDim S600000x128 ![0, 1] bcast_S600000x1_S600000x128_0_1
            (broadcastInDim S600000x1 ![0] bcast_S600000_S600000x1_0 (refNorm (F := F) ei)))))
      (mulf hW
        (broadcastInDim S50000x128 ![0, 1] bcast_S50000x1_S50000x128_0_1
          (broadcastInDim S50000x1 ![0] bcast_S50000_S50000x1_0 (mulf (refDinv (F := F) ei) (refDinv (F := F) ei))))))
    (broadcastInDim S50000x128 ![0, 1] bcast_S1x128_S50000x128_0_1 (broadcastInDim S1x128 ![1] bcast_S128_S1x128_1 b))

def refConv1 (x : FVec F S50000x1 .f32) (W : FVec F S1x128 .f32) (b : FVec F S128 .f32) (ei : IVec S2x600000 32) :
    FVec F S50000x128 .f32 :=
  refAgg (Host.dotGeneral dot_S50000x1_S1x128_S50000x128_1_0_0_1_n_n none x W) b ei

def refConv (h : FVec F S50000x128 .f32) (W : FVec F S128x128 .f32) (b : FVec F S128 .f32) (ei : IVec S2x600000 32) :
    FVec F S50000x128 .f32 :=
  refAgg (Host.dotGeneral dot_S50000x128_S128x128_S50000x128_1_0_0_1_n_n none h W) b ei

def refRelu (h : FVec F S50000x128 .f32) : FVec F S50000x128 .f32 :=
  maximumf h (broadcastInDim S50000x128 ![] bcast_S_S50000x128 (constant S_ .f32 0x00000000#32))

def refCounts (bt : IVec S50000 32) : FVec F S500 .f32 :=
  maximumf
    (Host.scatterAdd scatter_S500_S50000x1_S50000_n_0_0_1
      (broadcastInDim S500 ![] bcast_S_S500 (constant S_ .f32 0x00000000#32))
      (broadcastInDim S50000x1 ![0] bcast_S50000_S50000x1_0 bt)
      (broadcastInDim S50000 ![] bcast_S_S50000 (constant S_ .f32 0x3F800000#32)))
    (broadcastInDim S500 ![] bcast_S_S500 (constant S_ .f32 0x3F800000#32))

def refPool (h : FVec F S50000x128 .f32) (bt : IVec S50000 32) (Wl : FVec F S128x2 .f32) (bl : FVec F S2 .f32) :
    FVec F S500x2 .f32 :=
  addf
    (Host.dotGeneral dot_S500x128_S128x2_S500x2_1_0_0_1_n_n none
      (Host.divf
        (Host.scatterAdd scatter_S500x128_S50000x1_S50000x128_1_0_0_1
          (broadcastInDim S500x128 ![] bcast_S_S500x128 (constant S_ .f32 0x00000000#32))
          (broadcastInDim S50000x1 ![0] bcast_S50000_S50000x1_0 bt) h)
        (broadcastInDim S500x128 ![0, 1] bcast_S500x1_S500x128_0_1
          (broadcastInDim S500x1 ![0] bcast_S500_S500x1_0 (refCounts (F := F) bt))))
      Wl)
    (broadcastInDim S500x2 ![0, 1] bcast_S1x2_S500x2_0_1 (broadcastInDim S1x2 ![1] bcast_S2_S1x2_1 bl))

def refOut (x : FVec F S50000x1 .f32) (W1 : FVec F S1x128 .f32) (b1 : FVec F S128 .f32)
    (W2 : FVec F S128x128 .f32) (b2 : FVec F S128 .f32) (W3 : FVec F S128x128 .f32) (b3 : FVec F S128 .f32)
    (Wl : FVec F S128x2 .f32) (bl : FVec F S2 .f32) (ei : IVec S2x600000 32) (bt : IVec S50000 32) : FVec F S500x2 .f32 :=
  refPool (refConv (refRelu (refConv (refRelu (refConv1 x W1 b1 ei)) W2 b2 ei)) W3 b3 ei) bt Wl bl

end Cert.ReferenceIdeal.Hand

end
-- ==== Proof.KIVal024.lean ====
import proofs.«405176_j18674517803330_2_alg».proof.Proof.KIDefs
import proofs.«405176_j18674517803330_2_alg».proof.Proof.KISpec
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

namespace Val024

theorem bcast_col (x : FVec Ideal S2000x1 .f32) (p : Fin 2000) (q : Fin 128) :
    broadcastTo S2000x128 x broadcasts_S2000x1_S2000x128 (ix2 p q) = x (ix2 p 0) :=
  broadcastTo_apply x _ (ix2 p q) (ix2 p 0) (fun a => by fin_cases a <;> rfl)

theorem bcast_row (x : FVec Ideal S1x128 .f32) (p : Fin 2000) (q : Fin 128) :
    broadcastTo S2000x128 x broadcasts_S1x128_S2000x128 (ix2 p q) = x (ix2 0 q) :=
  broadcastTo_apply x _ (ix2 p q) (ix2 0 q) (fun a => by fin_cases a <;> rfl)

theorem pay0_at (x0 : Vec Ideal S2000x1 .f32) (x1 x2 : Vec Ideal S1x128 .f32) (p : Fin 2000) (q : Fin 128) :
    k0_pay1 x0 x1 x2 (ix2 p q) = max (x0 (ix2 p 0) * x1 (ix2 0 q) + x2 (ix2 0 q)) zeroW := by
  unfold k0_pay1
  simp only [maximumf_apply, addf_apply, mulf_apply, broadcast_apply, shapeCast_self, bcast_col, bcast_row]
  rfl

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev G0 (c : Dev nD) : S50000x128.Idx → EReal :=
  fun j => comb1At (V c main_v31) (V c main_arg1) (V c main_v32) (j 0) (j 1)

theorem pay0_blk (x0 : Vec Ideal S2000x1 .f32) (x1 x2 : Vec Ideal S1x128 .f32) (y : S2000x128.Idx) :
    k0_pay1 x0 x1 x2 y = max (x0 (ix2 (y 0) 0) * x1 (ix2 0 (y 1)) + x2 (ix2 0 (y 1))) zeroW :=
  (congrArg (k0_pay1 x0 x1 x2) (eq_ix2 y)).trans (pay0_at x0 x1 x2 (y 0) (y 1))

theorem comb1_congr {a a' b b' d d' : EReal} (ha : a = a') (hb : b = b') (hd : d = d') :
    max (a * b + d) zeroW = max (a' * b' + d') zeroW := by rw [ha, hb, hd]

set_option maxHeartbeats 1000000 in

theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  have ha : (dat0 V c).after 3 t = out0_3 (iblk0 V c 0 t) (iblk0 V c 1 t) (iblk0 V c 2 t) := by dsimp only [dat0]
  rw [ha]
  unfold out0_3
  rw [View.canon_unit_zero off00]
  simp only [View.ld_unit_zero (S := S2000x1) off00, View.ld_unit_zero (S := S1x128) off00]
  obtain ⟨e0, e1, e2, e3, e4, e5, e6, e7⟩ := idx0 t
  funext j
  show k0_pay1 (iblk0 V c 0 t) (iblk0 V c 1 t) (iblk0 V c 2 t) j = G0 V c (((cfg0.win 3).blk t).view.emb j)
  refine (pay0_blk _ _ _ j).trans ?_
  have hj0 : (j 0).val < 2000 := (j 0).isLt
  have hj1 : (j 1).val < 128 := (j 1).isLt
  have r0 : iblk0 V c 0 t (ix2 (j 0) 0 : S2000x1.Idx) = V c main_v31 (ix2 ((((cfg0.win 3).blk t).view.emb j) 0) 0 : S50000x1.Idx) := by
    show V c main_v31 (((cfg0.win 0).blk t).view.emb (ix2 (j 0) 0 : S2000x1.Idx)) = _
    congr 1
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 1 + 1 * 0 = 0; omega
  have r1 : iblk0 V c 1 t (ix2 0 (j 1) : S1x128.Idx) = V c main_arg1 (ix2 0 ((((cfg0.win 3).blk t).view.emb j) 1) : S1x128.Idx) := by
    show V c main_arg1 (((cfg0.win 1).blk t).view.emb (ix2 0 (j 1) : S1x128.Idx)) = _
    congr 1
    funext a; apply Fin.ext
    match a with
    | ⟨0, _⟩ => show win0_1.index t (0 : Fin 2) * 1 + 1 * 0 = 0; omega
    | ⟨1, _⟩ => show win0_1.index t (1 : Fin 2) * 128 + 1 * (j 1).val = win0_3.index t (1 : Fin 2) * 128 + 1 * (j 1).val; omega
  have r2 : iblk0 V c 2 t (ix2 0 (j 1) : S1x128.Idx) = V c main_v32 (ix2 0 ((((cfg0.win 3).blk t).view.emb j) 1) : S1x128.Idx) := by
    show V c main_v32 (((cfg0.win 2).blk t).view.emb (ix2 0 (j 1) : S1x128.Idx)) = _
    congr 1
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  exact comb1_congr r0 r1 r2

theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v33).slice (win0_3.rect t)).set ↔ _
  rw [View.set_slice_whole, Rect.mem_set_unit]
  exact Iff.rfl

theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := idx0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

end Val024

theorem final0 (c : Dev nD) (i : Fin 50000) (f : Fin 128) :
    (dat0 V c).arrAt 3 cfg0.N (ix2 i f) = comb1At (V c main_v31) (V c main_arg1) (V c main_v32) i f :=
  congrFun ((dat0 V c).arrAt_eq_of_cover 3 (Val024.G0 V c) (fun t _ => Val024.flushed0 V c t) Val024.cover0) (ix2 i f)

namespace Val024

theorem pay2_at (x0 : Vec Ideal S2000x1 .f32) (x2 x4 : Vec Ideal S2000x128 .f32) (x9 : Vec Ideal S1x128 .f32) (p : Fin 2000) (q : Fin 128) :
    k2_pay1 x0 x2 x4 x9 (ix2 p q) = max (x0 (ix2 p 0) * (x2 (ix2 p q) + x4 (ix2 p q)) + x9 (ix2 0 q)) zeroW := by
  unfold k2_pay1
  simp only [maximumf_apply, addf_apply, mulf_apply, broadcast_apply, shapeCast_self, bcast_col, bcast_row]
  rfl

theorem pay2_blk (x0 : Vec Ideal S2000x1 .f32) (x2 x4 : Vec Ideal S2000x128 .f32) (x9 : Vec Ideal S1x128 .f32) (y : S2000x128.Idx) :
    k2_pay1 x0 x2 x4 x9 y = max (x0 (ix2 (y 0) 0) * (x2 (ix2 (y 0) (y 1)) + x4 (ix2 (y 0) (y 1))) + x9 (ix2 0 (y 1))) zeroW :=
  (congrArg (k2_pay1 x0 x2 x4 x9) (eq_ix2 y)).trans (pay2_at x0 x2 x4 x9 (y 0) (y 1))

theorem comb2_congr {d d' s s' h h' b b' : EReal} (hd : d = d') (hs : s = s') (hh : h = h') (hb : b = b') :
    max (d * (s + h) + b) zeroW = max (d' * (s' + h') + b') zeroW := by rw [hd, hs, hh, hb]

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

abbrev G2 (c : Dev nD) : S50000x128.Idx → EReal :=
  fun j => max (combAt (V c main_v44) (V c main_v34) (V c main_v16) (V c main_v45) (j 0) (j 1)) zeroW

set_option maxHeartbeats 1000000 in

theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  have ha : (dat2 V c).after 4 t = out2_4 (iblk2 V c 0 t) (iblk2 V c 1 t) (iblk2 V c 2 t) (iblk2 V c 3 t) := by dsimp only [dat2]
  rw [ha]
  unfold out2_4
  rw [View.canon_unit_zero off00]
  simp only [View.ld_unit_zero (S := S2000x1) off00, View.ld_unit_zero (S := S1x128) off00, View.ld_unit_zero (S := S2000x128) off00]
  obtain ⟨e0, e1, e2, e3, e4, e5, e6, e7, e8, e9⟩ := idx2 t
  funext j
  show k2_pay1 (iblk2 V c 2 t) (iblk2 V c 0 t) (iblk2 V c 1 t) (iblk2 V c 3 t) j = G2 V c (((cfg2.win 4).blk t).view.emb j)
  refine (pay2_blk _ _ _ _ j).trans ?_
  have hj0 : (j 0).val < 2000 := (j 0).isLt
  have hj1 : (j 1).val < 128 := (j 1).isLt
  have rd : iblk2 V c 2 t (ix2 (j 0) 0 : S2000x1.Idx) = V c main_v16 (ix2 ((((cfg2.win 4).blk t).view.emb j) 0) 0 : S50000x1.Idx) := by
    show V c main_v16 (((cfg2.win 2).blk t).view.emb (ix2 (j 0) 0 : S2000x1.Idx)) = _
    congr 1
    funext a; apply Fin.ext
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 1 + 1 * 0 = 0; omega
  have rs : iblk2 V c 0 t (ix2 (j 0) (j 1) : S2000x128.Idx) = V c main_v44 (ix2 ((((cfg2.win 4).blk t).view.emb j) 0) ((((cfg2.win 4).blk t).view.emb j) 1) : S50000x128.Idx) := by
    show V c main_v44 (((cfg2.win 0).blk t).view.emb (ix2 (j 0) (j 1) : S2000x128.Idx)) = _
    congr 1
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * (j 1).val = win2_4.index t (1 : Fin 2) * 128 + 1 * (j 1).val; omega
  have rh : iblk2 V c 1 t (ix2 (j 0) (j 1) : S2000x128.Idx) = V c main_v34 (ix2 ((((cfg2.win 4).blk t).view.emb j) 0) ((((cfg2.win 4).blk t).view.emb j) 1) : S50000x128.Idx) := by
    show V c main_v34 (((cfg2.win 1).blk t).view.emb (ix2 (j 0) (j 1) : S2000x128.Idx)) = _
    congr 1
    funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 128 + 1 * (j 1).val = win2_4.index t (1 : Fin 2) * 128 + 1 * (j 1).val; omega
  have rb : iblk2 V c 3 t (ix2 0 (j 1) : S1x128.Idx) = V c main_v45 (ix2 0 ((((cfg2.win 4).blk t).view.emb j) 1) : S1x128.Idx) := by
    show V c main_v45 (((cfg2.win 3).blk t).view.emb (ix2 0 (j 1) : S1x128.Idx)) = _
    congr 1
    funext a; apply Fin.ext
    match a with
    | ⟨0, _⟩ => show win2_3.index t (0 : Fin 2) * 1 + 1 * 0 = 0; omega
    | ⟨1, _⟩ => show win2_3.index t (1 : Fin 2) * 128 + 1 * (j 1).val = win2_4.index t (1 : Fin 2) * 128 + 1 * (j 1).val; omega
  exact comb2_congr rd rs rh rb

theorem mem_blk2 (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v46).slice (win2_4.rect t)).set ↔ _
  rw [View.set_slice_whole, Rect.mem_set_unit]
  exact Iff.rfl

theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, e8, e9⟩ := idx2 t
  refine ⟨t, flush2_4 t, ?_⟩
  rw [mem_blk2]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

end Val024

theorem final2 (c : Dev nD) (i : Fin 50000) (f : Fin 128) :
    (dat2 V c).arrAt 4 cfg2.N (ix2 i f) = max (combAt (V c main_v44) (V c main_v34) (V c main_v16) (V c main_v45) i f) zeroW :=
  congrFun ((dat2 V c).arrAt_eq_of_cover 4 (Val024.G2 V c) (fun t _ => Val024.flushed2 V c t) Val024.cover2) (ix2 i f)

namespace Val024

theorem pay4_at (x0 : Vec Ideal S2000x1 .f32) (x2 x4 : Vec Ideal S2000x128 .f32) (x9 : Vec Ideal S1x128 .f32) (p : Fin 2000) (q : Fin 128) :
    k4_pay1 x0 x2 x4 x9 (ix2 p q) = x0 (ix2 p 0) * (x2 (ix2 p q) + x4 (ix2 p q)) + x9 (ix2 0 q) := by
  unfold k4_pay1
  simp only [addf_apply, mulf_apply, shapeCast_self, bcast_col, bcast_row]

theorem pay4_blk (x0 : Vec Ideal S2000x1 .f32) (x2 x4 : Vec Ideal S2000x128 .f32) (x9 : Vec Ideal S1x128 .f32) (y : S2000x128.Idx) :
    k4_pay1 x0 x2 x4 x9 y = x0 (ix2 (y 0) 0) * (x2 (ix2 (y 0) (y 1)) + x4 (ix2 (y 0) (y 1))) + x9 (ix2 0 (y 1)) :=
  (congrArg (k4_pay1 x0 x2 x4 x9) (eq_ix2 y)).trans (pay4_at x0 x2 x4 x9 (y 0) (y 1))

theorem comb4_congr {d d' s s' h h' b b' : EReal} (hd : d = d') (hs : s = s') (hh : h = h') (hb : b = b') :
    d * (s + h) + b = d' * (s' + h') + b' := by rw [hd, hs, hh, hb]

theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

abbrev G4 (c : Dev nD) : S50000x128.Idx → EReal :=
  fun j => combAt (V c main_v57) (V c main_v47) (V c main_v16) (V c main_v58) (j 0) (j 1)

set_option maxHeartbeats 1000000 in

theorem flushed4 (c : Dev nD) (t : Fin cfg4.N) :
    (dat4 V c).flushed 4 t = ((cfg4.win 4).blk t).view.read (Elt Ideal) (G4 V c) := by
  show (cfg4.win 4).cut (grid4.coords t) ((dat4 V c).after 4 t) = _
  have ha : (dat4 V c).after 4 t = out4_4 (iblk4 V c 0 t) (iblk4 V c 1 t) (iblk4 V c 2 t) (iblk4 V c 3 t) := by dsimp only [dat4]
  rw [ha]
  unfold out4_4
  rw [View.canon_unit_zero off00]
  simp only [View.ld_unit_zero (S := S2000x1) off00, View.ld_unit_zero (S := S1x128) off00, View.ld_unit_zero (S := S2000x128) off00]
  obtain ⟨e0, e1, e2, e3, e4, e5, e6, e7, e8, e9⟩ := idx4 t
  funext j
  show k4_pay1 (iblk4 V c 2 t) (iblk4 V c 0 t) (iblk4 V c 1 t) (iblk4 V c 3 t) j = G4 V c (((cfg4.win 4).blk t).view.emb j)
  refine (pay4_blk _ _ _ _ j).trans ?_
  have hj0 : (j 0).val < 2000 := (j 0).isLt
  have hj1 : (j 1).val < 128 := (j 1).isLt
  have rd : iblk4 V c 2 t (ix2 (j 0) 0 : S2000x1.Idx) = V c main_v16 (ix2 ((((cfg4.win 4).blk t).view.emb j) 0) 0 : S50000x1.Idx) := by
    show V c main_v16 (((cfg4.win 2).blk t).view.emb (ix2 (j 0) 0 : S2000x1.Idx)) = _
    congr 1
    funext a; apply Fin.ext
    match a with
    | ⟨0, _⟩ => show win4_2.index t (0 : Fin 2) * 2000 + 1 * (j 0).val = win4_4.index t (0 : Fin 2) * 2000 + 1 * (j 0).val; omega
    | ⟨1, _⟩ => show win4_2.index t (1 : Fin 2) * 1 + 1 * 0 = 0; omega
  have rs : iblk4 V c 0 t (ix2 (j 0) (j 1) : S2000x128.Idx) = V c main_v57 (ix2 ((((cfg4.win 4).blk t).view.emb j) 0) ((((cfg4.win 4).blk t).view.emb j) 1) : S50000x128.Idx) := by
    show V c main_v57 (((cfg4.win 0).blk t).view.emb (ix2 (j 0) (j 1) : S2000x128.Idx)) = _
    congr 1
    funext a; apply Fin.ext
    match a with
    | ⟨0, _⟩ => show win4_0.index t (0 : Fin 2) * 2000 + 1 * (j 0).val = win4_4.index t (0 : Fin 2) * 2000 + 1 * (j 0).val; omega
    | ⟨1, _⟩ => show win4_0.index t (1 : Fin 2) * 128 + 1 * (j 1).val = win4_4.index t (1 : Fin 2) * 128 + 1 * (j 1).val; omega
  have rh : iblk4 V c 1 t (ix2 (j 0) (j 1) : S2000x128.Idx) = V c main_v47 (ix2 ((((cfg4.win 4).blk t).view.emb j) 0) ((((cfg4.win 4).blk t).view.emb j) 1) : S50000x128.Idx) := by
    show V c main_v47 (((cfg4.win 1).blk t).view.emb (ix2 (j 0) (j 1) : S2000x128.Idx)) = _
    congr 1
    funext a; apply Fin.ext
    match a with
    | ⟨0, _⟩ => show win4_1.index t (0 : Fin 2) * 2000 + 1 * (j 0).val = win4_4.index t (0 : Fin 2) * 2000 + 1 * (j 0).val; omega
    | ⟨1, _⟩ => show win4_1.index t (1 : Fin 2) * 128 + 1 * (j 1).val = win4_4.index t (1 : Fin 2) * 128 + 1 * (j 1).val; omega
  have rb : iblk4 V c 3 t (ix2 0 (j 1) : S1x128.Idx) = V c main_v58 (ix2 0 ((((cfg4.win 4).blk t).view.emb j) 1) : S1x128.Idx) := by
    show V c main_v58 (((cfg4.win 3).blk t).view.emb (ix2 0 (j 1) : S1x128.Idx)) = _
    congr 1
    funext a; apply Fin.ext
    match a with
    | ⟨0, _⟩ => show win4_3.index t (0 : Fin 2) * 1 + 1 * 0 = 0; omega
    | ⟨1, _⟩ => show win4_3.index t (1 : Fin 2) * 128 + 1 * (j 1).val = win4_4.index t (1 : Fin 2) * 128 + 1 * (j 1).val; omega
  exact comb4_congr rd rs rh rb

theorem mem_blk4 (t : Fin cfg4.N) (i : S50000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v59).slice (win4_4.rect t)).set ↔ _
  rw [View.set_slice_whole, Rect.mem_set_unit]
  exact Iff.rfl

theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, -, -, e8, e9⟩ := idx4 t
  refine ⟨t, flush4_4 t, ?_⟩
  rw [mem_blk4]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 128 ≤ (i 1).val ∧ (i 1).val < win4_4.index t (1 : Fin 2) * 128 + 128; omega

end Val024

theorem final4 (c : Dev nD) (i : Fin 50000) (f : Fin 128) :
    (dat4 V c).arrAt 4 cfg4.N (ix2 i f) = combAt (V c main_v57) (V c main_v47) (V c main_v16) (V c main_v58) i f :=
  congrFun ((dat4 V c).arrAt_eq_of_cover 4 (Val024.G4 V c) (fun t _ => Val024.flushed4 V c t) Val024.cover4) (ix2 i f)

end Cert.KernelIdeal.Hand

end
-- ==== Proof.KIVal13.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import Idealize.ShloMosaic.Lib.Pipeline.FrameBody
import Idealize.ShloMosaic.Lib.Ring
import Idealize.ShloMosaic.Lib.Tactic
import proofs.«405176_j18674517803330_2_alg».proof.Proof.KIDefs
import proofs.«405176_j18674517803330_2_alg».proof.Proof.KISpec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem mm_lhs_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem mm_lhs_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q

theorem mm_rhs_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q

theorem mm_rhs_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

theorem degCol_apply (d : Vec Ideal S2000x1 .f32) (p : Fin 2000) (q : Fin 128) :
    broadcastTo S2000x128 d broadcasts_S2000x1_S2000x128 (ix2 p q) = d (ix2 p 0) := by
  refine broadcastTo_apply d broadcasts_S2000x1_S2000x128 (ix2 p q) (ix2 p 0) fun a => ?_
  match a with
  | ⟨0, _⟩ => rfl
  | ⟨1, _⟩ => rfl

theorem pay1_apply (x0 : Vec Ideal S2000x128 .f32) (x1 : Vec Ideal S128x128 .f32) (x2 : Vec Ideal S2000x1 .f32) (p : Fin 2000) (q : Fin 128) :
    k1_pay1 x0 x1 x2 (ix2 p q) = (∑ k : Fin 128, x0 (ix2 p k) * x1 (ix2 k q)) * x2 (ix2 p 0) := by
  unfold k1_pay1
  rw [mulf_apply, shapeCast_self, shapeCast_self, degCol_apply, mm_apply]
  rfl

def lin1 (c : Dev nD) : S50000x128.Idx → EReal :=
  fun i => linAt (V c main_v33) (V c main_arg3) (V c main_v16) (i 0) (i 1)

theorem blkIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem feat1_apply (c : Dev nD) (t : Fin cfg1.N) (p : Fin 2000) (k : Fin 128) (i : Fin 50000) (hi : i.val = 2000 * t.val + p.val) :
    (iblk1 V c 0 t : Vec Ideal S2000x128 .f32) (ix2 p k) = (V c main_v33 : S50000x128.Idx → EReal) (ix2 i k) := by
  obtain ⟨e0, e1, -⟩ := blkIdx1 t
  unfold iblk1
  rw [View.read_apply]
  show V c main_v33 _ = V c main_v33 _
  congr 1
  funext a
  apply Fin.ext
  match a with
  | ⟨0, _⟩ => show win1_0.index t (0 : Fin 2) * 2000 + 1 * p.val = i.val; rw [e0, hi]; omega
  | ⟨1, _⟩ => show win1_0.index t (1 : Fin 2) * 128 + 1 * k.val = k.val; rw [e1]; omega

theorem wts1_apply (c : Dev nD) (t : Fin cfg1.N) (k : Fin 128) (q : Fin 128) :
    (iblk1 V c 1 t : Vec Ideal S128x128 .f32) (ix2 k q) = (V c main_arg3 : S128x128.Idx → EReal) (ix2 k q) := by
  obtain ⟨-, -, e0, e1, -⟩ := blkIdx1 t
  unfold iblk1
  rw [View.read_apply]
  show V c main_arg3 _ = V c main_arg3 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

theorem deg1_apply (c : Dev nD) (t : Fin cfg1.N) (p : Fin 2000) (i : Fin 50000) (hi : i.val = 2000 * t.val + p.val) :
    (iblk1 V c 2 t : Vec Ideal S2000x1 .f32) (ix2 p 0) = (V c main_v16 : S50000x1.Idx → EReal) (ix2 i 0) := by
  obtain ⟨-, -, -, -, e0, e1, -⟩ := blkIdx1 t
  unfold iblk1
  rw [View.read_apply]
  show V c main_v16 _ = V c main_v16 _
  congr 1
  funext a
  apply Fin.ext
  match a with
  | ⟨0, _⟩ => show win1_2.index t (0 : Fin 2) * 2000 + 1 * p.val = i.val; rw [e0, hi]; omega
  | ⟨1, _⟩ => show win1_2.index t (1 : Fin 2) * 1 + 1 * 0 = 0; rw [e1]

theorem outEmb1 (t : Fin cfg1.N) (p : Fin 2000) (q : Fin 128) (i : Fin 50000) (hi : i.val = 2000 * t.val + p.val) :
    ((cfg1.win 3).blk t).view.emb (ix2 p q) = (ix2 i q : S50000x128.Idx) := by
  obtain ⟨-, -, -, -, -, -, e0, e1⟩ := blkIdx1 t
  funext a
  apply Fin.ext
  match a with
  | ⟨0, _⟩ => show win1_3.index t (0 : Fin 2) * 2000 + 1 * p.val = i.val; rw [e0, hi]; omega
  | ⟨1, _⟩ => show win1_3.index t (1 : Fin 2) * 128 + 1 * q.val = q.val; rw [e1]; omega

theorem flushed1_eq (c : Dev nD) (t : Fin cfg1.N) :
    (dat1 V c).flushed 3 t = ((cfg1.win 3).blk t).view.read (Elt Ideal) (lin1 V c) := by
  show (cfg1.win 3).cut (grid1.coords t) ((dat1 V c).after 3 t) = _
  have hafter : (dat1 V c).after 3 t = out1_3 (iblk1 V c 0 t) (iblk1 V c 1 t) (iblk1 V c 2 t) := by dsimp only [dat1]
  rw [hafter]
  unfold out1_3
  rw [View.canon_unit_zero off00]
  simp only [View.ld_unit_zero (S := S2000x128) off00, View.ld_unit_zero (S := S128x128) off00, View.ld_unit_zero (S := S2000x1) off00]
  funext j
  obtain ⟨p, q, rfl⟩ : ∃ (p : Fin 2000) (q : Fin 128), j = ix2 p q := ⟨j 0, j 1, eq_ix2 j⟩
  have hN : cfg1.N = 25 := N_1
  have hi : (⟨2000 * t.val + p.val, by have := t.isLt; have := p.isLt; omega⟩ : Fin 50000).val = 2000 * t.val + p.val := rfl
  show k1_pay1 (iblk1 V c 0 t) (iblk1 V c 1 t) (iblk1 V c 2 t) (ix2 p q) = lin1 V c (((cfg1.win 3).blk t).view.emb (ix2 p q))
  rw [outEmb1 t p q _ hi]
  refine (pay1_apply _ _ _ p q).trans ?_
  show _ = linAt (V c main_v33) (V c main_arg3) (V c main_v16) _ q
  unfold linAt
  refine congrArg₂ (· * ·) (Finset.sum_congr rfl fun k _ => ?_) (deg1_apply V c t p _ hi)
  exact congrArg₂ (· * ·) (feat1_apply V c t p k _ hi) (wts1_apply V c t k q)

theorem mem_blk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v34).slice (win1_3.rect t)).set ↔ _
  rw [View.set_slice_whole, Rect.mem_set_unit]
  exact Iff.rfl

theorem cover1 (i : S50000x128.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  refine ⟨⟨(i 0).val / 2000, by omega⟩, flush1_3 _, ?_⟩
  obtain ⟨-, -, -, -, -, -, e0, e1⟩ := blkIdx1 ⟨(i 0).val / 2000, by omega⟩
  rw [mem_blk1]
  intro a
  match a with
  | ⟨0, _⟩ => show win1_3.index ⟨(i 0).val / 2000, _⟩ (0 : Fin 2) * 2000 ≤ (i 0).val ∧ (i 0).val < win1_3.index ⟨(i 0).val / 2000, _⟩ (0 : Fin 2) * 2000 + 2000; rw [e0]; show (i 0).val / 2000 * 2000 ≤ (i 0).val ∧ (i 0).val < (i 0).val / 2000 * 2000 + 2000; omega
  | ⟨1, _⟩ => show win1_3.index ⟨(i 0).val / 2000, _⟩ (1 : Fin 2) * 128 ≤ (i 1).val ∧ (i 1).val < win1_3.index ⟨(i 0).val / 2000, _⟩ (1 : Fin 2) * 128 + 128; rw [e1]; omega

theorem final1 (c : Dev nD) (i : Fin 50000) (f : Fin 128) :
    (dat1 V c).arrAt 3 cfg1.N (ix2 i f) = linAt (V c main_v33) (V c main_arg3) (V c main_v16) i f :=
  congrFun ((dat1 V c).arrAt_eq_of_cover 3 (lin1 V c) (fun t _ => flushed1_eq V c t) cover1) (ix2 i f)

theorem pay3_apply (x0 : Vec Ideal S2000x128 .f32) (x1 : Vec Ideal S128x128 .f32) (x2 : Vec Ideal S2000x1 .f32) (p : Fin 2000) (q : Fin 128) :
    k3_pay1 x0 x1 x2 (ix2 p q) = (∑ k : Fin 128, x0 (ix2 p k) * x1 (ix2 k q)) * x2 (ix2 p 0) :=
  pay1_apply x0 x1 x2 p q

def lin3 (c : Dev nD) : S50000x128.Idx → EReal :=
  fun i => linAt (V c main_v46) (V c main_arg5) (V c main_v16) (i 0) (i 1)

theorem blkIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem feat3_apply (c : Dev nD) (t : Fin cfg3.N) (p : Fin 2000) (k : Fin 128) (i : Fin 50000) (hi : i.val = 2000 * t.val + p.val) :
    (iblk3 V c 0 t : Vec Ideal S2000x128 .f32) (ix2 p k) = (V c main_v46 : S50000x128.Idx → EReal) (ix2 i k) := by
  obtain ⟨e0, e1, -⟩ := blkIdx3 t
  unfold iblk3
  rw [View.read_apply]
  show V c main_v46 _ = V c main_v46 _
  congr 1
  funext a
  apply Fin.ext
  match a with
  | ⟨0, _⟩ => show win3_0.index t (0 : Fin 2) * 2000 + 1 * p.val = i.val; rw [e0, hi]; omega
  | ⟨1, _⟩ => show win3_0.index t (1 : Fin 2) * 128 + 1 * k.val = k.val; rw [e1]; omega

theorem wts3_apply (c : Dev nD) (t : Fin cfg3.N) (k : Fin 128) (q : Fin 128) :
    (iblk3 V c 1 t : Vec Ideal S128x128 .f32) (ix2 k q) = (V c main_arg5 : S128x128.Idx → EReal) (ix2 k q) := by
  obtain ⟨-, -, e0, e1, -⟩ := blkIdx3 t
  unfold iblk3
  rw [View.read_apply]
  show V c main_arg5 _ = V c main_arg5 _
  congr 1
  funext a
  apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

theorem deg3_apply (c : Dev nD) (t : Fin cfg3.N) (p : Fin 2000) (i : Fin 50000) (hi : i.val = 2000 * t.val + p.val) :
    (iblk3 V c 2 t : Vec Ideal S2000x1 .f32) (ix2 p 0) = (V c main_v16 : S50000x1.Idx → EReal) (ix2 i 0) := by
  obtain ⟨-, -, -, -, e0, e1, -⟩ := blkIdx3 t
  unfold iblk3
  rw [View.read_apply]
  show V c main_v16 _ = V c main_v16 _
  congr 1
  funext a
  apply Fin.ext
  match a with
  | ⟨0, _⟩ => show win3_2.index t (0 : Fin 2) * 2000 + 1 * p.val = i.val; rw [e0, hi]; omega
  | ⟨1, _⟩ => show win3_2.index t (1 : Fin 2) * 1 + 1 * 0 = 0; rw [e1]

theorem outEmb3 (t : Fin cfg3.N) (p : Fin 2000) (q : Fin 128) (i : Fin 50000) (hi : i.val = 2000 * t.val + p.val) :
    ((cfg3.win 3).blk t).view.emb (ix2 p q) = (ix2 i q : S50000x128.Idx) := by
  obtain ⟨-, -, -, -, -, -, e0, e1⟩ := blkIdx3 t
  funext a
  apply Fin.ext
  match a with
  | ⟨0, _⟩ => show win3_3.index t (0 : Fin 2) * 2000 + 1 * p.val = i.val; rw [e0, hi]; omega
  | ⟨1, _⟩ => show win3_3.index t (1 : Fin 2) * 128 + 1 * q.val = q.val; rw [e1]; omega

theorem flushed3_eq (c : Dev nD) (t : Fin cfg3.N) :
    (dat3 V c).flushed 3 t = ((cfg3.win 3).blk t).view.read (Elt Ideal) (lin3 V c) := by
  show (cfg3.win 3).cut (grid3.coords t) ((dat3 V c).after 3 t) = _
  have hafter : (dat3 V c).after 3 t = out3_3 (iblk3 V c 0 t) (iblk3 V c 1 t) (iblk3 V c 2 t) := by dsimp only [dat3]
  rw [hafter]
  unfold out3_3
  rw [View.canon_unit_zero off00]
  simp only [View.ld_unit_zero (S := S2000x128) off00, View.ld_unit_zero (S := S128x128) off00, View.ld_unit_zero (S := S2000x1) off00]
  funext j
  obtain ⟨p, q, rfl⟩ : ∃ (p : Fin 2000) (q : Fin 128), j = ix2 p q := ⟨j 0, j 1, eq_ix2 j⟩
  have hN : cfg3.N = 25 := N_3
  have hi : (⟨2000 * t.val + p.val, by have := t.isLt; have := p.isLt; omega⟩ : Fin 50000).val = 2000 * t.val + p.val := rfl
  show k3_pay1 (iblk3 V c 0 t) (iblk3 V c 1 t) (iblk3 V c 2 t) (ix2 p q) = lin3 V c (((cfg3.win 3).blk t).view.emb (ix2 p q))
  rw [outEmb3 t p q _ hi]
  refine (pay3_apply _ _ _ p q).trans ?_
  show _ = linAt (V c main_v46) (V c main_arg5) (V c main_v16) _ q
  unfold linAt
  refine congrArg₂ (· * ·) (Finset.sum_congr rfl fun k _ => ?_) (deg3_apply V c t p _ hi)
  exact congrArg₂ (· * ·) (feat3_apply V c t p k _ hi) (wts3_apply V c t k q)

theorem mem_blk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v47).slice (win3_3.rect t)).set ↔ _
  rw [View.set_slice_whole, Rect.mem_set_unit]
  exact Iff.rfl

theorem cover3 (i : S50000x128.Idx) : ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  refine ⟨⟨(i 0).val / 2000, by omega⟩, flush3_3 _, ?_⟩
  obtain ⟨-, -, -, -, -, -, e0, e1⟩ := blkIdx3 ⟨(i 0).val / 2000, by omega⟩
  rw [mem_blk3]
  intro a
  match a with
  | ⟨0, _⟩ => show win3_3.index ⟨(i 0).val / 2000, _⟩ (0 : Fin 2) * 2000 ≤ (i 0).val ∧ (i 0).val < win3_3.index ⟨(i 0).val / 2000, _⟩ (0 : Fin 2) * 2000 + 2000; rw [e0]; show (i 0).val / 2000 * 2000 ≤ (i 0).val ∧ (i 0).val < (i 0).val / 2000 * 2000 + 2000; omega
  | ⟨1, _⟩ => show win3_3.index ⟨(i 0).val / 2000, _⟩ (1 : Fin 2) * 128 ≤ (i 1).val ∧ (i 1).val < win3_3.index ⟨(i 0).val / 2000, _⟩ (1 : Fin 2) * 128 + 128; rw [e1]; omega

theorem final3 (c : Dev nD) (i : Fin 50000) (f : Fin 128) :
    (dat3 V c).arrAt 3 cfg3.N (ix2 i f) = linAt (V c main_v46) (V c main_arg5) (V c main_v16) i f :=
  congrFun ((dat3 V c).arrAt_eq_of_cover 3 (lin3 V c) (fun t _ => flushed3_eq V c t) cover3) (ix2 i f)

end Cert.KernelIdeal.Hand

end
-- ==== Proof.KIVal5.lean ====
import proofs.«405176_j18674517803330_2_alg».proof.Proof.Gen.KernelIdeal.Launch
import proofs.«405176_j18674517803330_2_alg».proof.Proof.Gen.KernelIdeal.Skeleton
import proofs.«405176_j18674517803330_2_alg».proof.Proof.Gen.KernelIdeal.Points
import proofs.«405176_j18674517803330_2_alg».proof.Proof.KIDefs
import proofs.«405176_j18674517803330_2_alg».proof.Proof.KISpec
import Idealize.ShloMosaic.Lib.Pipeline.FrameBody
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem lhsP_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q

theorem lhsP_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide),
    dif_pos (show (1 : Fin S2000x512.rank) ∈ dot_S2000x512_S2000x128_S512x128_0_0_1_1_n_n.lhsNonContracting by decide)]
  rfl

theorem rhsP_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q

theorem rhsP_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide),
    dif_pos (show (1 : Fin S2000x128.rank) ∈ dot_S2000x512_S2000x128_S512x128_0_0_1_1_n_n.rhsNonContracting by decide)]
  rfl

theorem poolDot_apply (A : FVec Ideal S2000x512 .bf16) (B : FVec Ideal S2000x128 .bf16) (g : Fin 512) (k : Fin 128) :
    matmul dot_S2000x512_S2000x128_S512x128_0_0_1_1_n_n none A B (constant (F := Ideal) S512x128 .f32 0x00000000#32) (ix2 g k)
      = ∑ r : Fin 2000, A (ix2 r g) * B (ix2 r k) := by
  simp only [matmul]
  rw [Ideal.matmul_constant_zero_apply,
    ← Equiv.sum_comp (contrEquiv1 dot_S2000x512_S2000x128_S512x128_0_0_1_1_n_n 2000 rfl rfl).symm]
  refine Finset.sum_congr rfl fun r _ => ?_
  have hk := contrEquiv1_symm_val dot_S2000x512_S2000x128_S512x128_0_0_1_1_n_n 2000 rfl rfl r
  have el : dot_S2000x512_S2000x128_S512x128_0_0_1_1_n_n.lhsIdx (ix2 g k)
      ((contrEquiv1 dot_S2000x512_S2000x128_S512x128_0_0_1_1_n_n 2000 rfl rfl).symm r) = ix2 r g :=
    funext fun a => Fin.ext (by
      match a with
      | ⟨0, _⟩ => exact (lhsP_0 _ _).trans hk
      | ⟨1, _⟩ => exact lhsP_1 _ _)
  have er : dot_S2000x512_S2000x128_S512x128_0_0_1_1_n_n.rhsIdx (ix2 g k)
      ((contrEquiv1 dot_S2000x512_S2000x128_S512x128_0_0_1_1_n_n 2000 rfl rfl).symm r) = ix2 r k :=
    funext fun a => Fin.ext (by
      match a with
      | ⟨0, _⟩ => exact (rhsP_0 _ _).trans hk
      | ⟨1, _⟩ => exact rhsP_1 _ _)
  rw [el, er]

theorem lhsC_0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide),
    dif_pos (show (0 : Fin S512x128.rank) ∈ dot_S512x128_S128x2_S512x2_1_0_0_1_n_n.lhsNonContracting by decide)]
  rfl

theorem lhsC_1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q

theorem rhsC_0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q

theorem rhsC_1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide),
    dif_pos (show (1 : Fin S128x2.rank) ∈ dot_S512x128_S128x2_S512x2_1_0_0_1_n_n.rhsNonContracting by decide)]
  rfl

theorem clsDot_apply (A : FVec Ideal S512x128 .bf16) (B : FVec Ideal S128x2 .bf16) (g : Fin 512) (o : Fin 2) :
    matmul dot_S512x128_S128x2_S512x2_1_0_0_1_n_n none A B (constant (F := Ideal) S512x2 .f32 0x00000000#32) (ix2 g o)
      = ∑ k : Fin 128, A (ix2 g k) * B (ix2 k o) := by
  simp only [matmul]
  rw [Ideal.matmul_constant_zero_apply,
    ← Equiv.sum_comp (contrEquiv1 dot_S512x128_S128x2_S512x2_1_0_0_1_n_n 128 rfl rfl).symm]
  refine Finset.sum_congr rfl fun k _ => ?_
  have hk := contrEquiv1_symm_val dot_S512x128_S128x2_S512x2_1_0_0_1_n_n 128 rfl rfl k
  have el : dot_S512x128_S128x2_S512x2_1_0_0_1_n_n.lhsIdx (ix2 g o)
      ((contrEquiv1 dot_S512x128_S128x2_S512x2_1_0_0_1_n_n 128 rfl rfl).symm k) = ix2 g k :=
    funext fun a => Fin.ext (by
      match a with
      | ⟨0, _⟩ => exact lhsC_0 _ _
      | ⟨1, _⟩ => exact (lhsC_1 _ _).trans hk)
  have er : dot_S512x128_S128x2_S512x2_1_0_0_1_n_n.rhsIdx (ix2 g o)
      ((contrEquiv1 dot_S512x128_S128x2_S512x2_1_0_0_1_n_n 128 rfl rfl).symm k) = ix2 k o :=
    funext fun a => Fin.ext (by
      match a with
      | ⟨0, _⟩ => exact (rhsC_0 _ _).trans hk
      | ⟨1, _⟩ => exact rhsC_1 _ _)
  rw [el, er]

theorem onehot_apply (xb : IVec S2000x1 32) (r : Fin 2000) (g : Fin 512) :
    (sitofp (F := Ideal) .f32 (extui 32 (cmpi .eq
        (broadcastTo S2000x512 (shapeCast S2000x1 xb shapeCasts_S2000x1_S2000x1) broadcasts_S2000x1_S2000x512)
        (iota .tc S2000x512 32 [1] iota_S2000x512_d1_w32)) natLt_1_32) : FVec Ideal S2000x512 .f32) (ix2 r g)
      = memberW (xb (ix2 r 0)) g := by
  show FloatOps.sitofp (F := Ideal) .f32 ((IntOp.cmpi .eq
      (broadcastTo S2000x512 (shapeCast S2000x1 xb shapeCasts_S2000x1_S2000x1) broadcasts_S2000x1_S2000x512 (ix2 r g))
      (iota .tc S2000x512 32 [1] iota_S2000x512_d1_w32 (ix2 r g))).setWidth 32) = _
  rw [iota_single_apply, broadcastTo_apply _ _ (ix2 r g) (ix2 r 0) (fun a => by
    match a with
    | ⟨0, _⟩ => rfl
    | ⟨1, _⟩ => rfl), shapeCast_self]
  show FloatOps.sitofp (F := Ideal) .f32 ((IntOp.cmpi .eq (xb (ix2 r 0)) (BitVec.ofNat 32 g.val)).setWidth 32) = _
  unfold memberW
  by_cases h : xb (ix2 r 0) = BitVec.ofNat 32 g.val
  · have e : IntOp.cmpi .eq (xb (ix2 r 0)) (BitVec.ofNat 32 g.val) = 1#1 := by simp [IntOp.cmpi, h]
    rw [if_pos h, e]
    show ((((1#1 : BitVec 1).setWidth 32).toInt : ℝ) : EReal) = 1
    rw [show ((1#1 : BitVec 1).setWidth 32).toInt = 1 from by decide]
    simp
  · have e : IntOp.cmpi .eq (xb (ix2 r 0)) (BitVec.ofNat 32 g.val) = 0#1 := by
      unfold IntOp.cmpi
      rw [show (xb (ix2 r 0) == BitVec.ofNat 32 g.val) = false from beq_eq_false_iff_ne.mpr h]
      rfl
    rw [if_neg h, e]
    show ((((0#1 : BitVec 1).setWidth 32).toInt : ℝ) : EReal) = 0
    rw [show ((0#1 : BitVec 1).setWidth 32).toInt = 0 from by decide]
    simp

theorem k5_pay1_apply (j : S512x128.Idx) : (k5_pay1 (F := Ideal)) j = 0 := by
  show Ideal.ofBits .f32 0x00000000#32 = 0
  exact Ideal.ofBits_zero_f32

theorem k5_pay2_apply (xb : Vec Ideal S2000x1 .i32) (xh : Vec Ideal S2000x128 .f32) (s : Vec Ideal S512x128 .f32)
    (g : Fin 512) (k : Fin 128) :
    k5_pay2 xb xh s (ix2 g k) = s (ix2 g k) + ∑ r : Fin 2000, memberW (xb (ix2 r 0)) g * xh (ix2 r k) := by
  unfold k5_pay2
  dsimp only
  refine (congrFun (shapeCast_self _ _) (ix2 g k)).trans ?_
  refine congrArg (s (ix2 g k) + ·) ?_
  refine (poolDot_apply _ _ g k).trans ?_
  refine Finset.sum_congr rfl fun r _ => ?_
  exact congrArg₂ (· * ·) (onehot_apply xb r g) (congrFun (shapeCast_self xh _) (ix2 r k))

theorem k5_pay3_apply (s : Vec Ideal S512x128 .f32) (cnt : Vec Ideal S512x1 .f32) (Wl : Vec Ideal S128x2 .f32)
    (bl : Vec Ideal S1x2 .f32) (g : Fin 512) (o : Fin 2) :
    k5_pay3 s cnt Wl bl (ix2 g o)
      = (∑ k : Fin 128, Ideal.div (s (ix2 g k)) (cnt (ix2 g 0)) * Wl (ix2 k o)) + bl (ix2 0 o) := by
  unfold k5_pay3
  refine congrArg₂ (· + ·) ?_ ?_
  · refine (clsDot_apply _ _ g o).trans ?_
    refine Finset.sum_congr rfl fun k _ => ?_
    refine congrArg (· * Wl (ix2 k o)) ?_
    refine congrArg (Ideal.div (s (ix2 g k))) ?_
    refine (broadcastTo_apply _ _ (ix2 g k) (ix2 g 0) (fun a => by
      match a with
      | ⟨0, _⟩ => rfl
      | ⟨1, _⟩ => rfl)).trans ?_
    exact congrFun (shapeCast_self cnt _) (ix2 g 0)
  · refine (broadcastTo_apply _ _ (ix2 g o) (ix2 0 o) (fun a => by
      match a with
      | ⟨0, _⟩ => rfl
      | ⟨1, _⟩ => rfl)).trans ?_
    exact congrFun (shapeCast_self bl _) (ix2 0 o)

theorem acc5_apply (xb : Vec Ideal S2000x1 .i32) (xh : Vec Ideal S2000x128 .f32) (s : Vec Ideal S512x128 .f32)
    (g : Fin 512) (k : Fin 128) :
    acc5 xb xh s (ix2 g k) = s (ix2 g k) + ∑ r : Fin 2000, memberW (xb (ix2 r 0)) g * xh (ix2 r k) := by
  unfold acc5
  rw [View.canon_unit_zero off00]
  simp only [View.ld_unit_zero (S := S2000x1) off00, View.ld_unit_zero (S := S2000x128) off00]
  exact k5_pay2_apply xb xh s g k

theorem out5_5_apply (s : Vec Ideal S512x128 .f32) (x2 : Vec Ideal S512x1 .f32) (x3 : Vec Ideal S128x2 .f32)
    (x4 : Vec Ideal S1x2 .f32) (g : Fin 512) (o : Fin 2) :
    out5_5 s x2 x3 x4 (ix2 g o)
      = (∑ k : Fin 128, Ideal.div (s (ix2 g k)) (x2 (ix2 g 0)) * x3 (ix2 k o)) + x4 (ix2 0 o) := by
  unfold out5_5
  rw [View.canon_unit_zero off00]
  simp only [View.ld_unit_zero (S := S512x128) off00, View.ld_unit_zero (S := S512x1) off00,
    View.ld_unit_zero (S := S128x2) off00, View.ld_unit_zero (S := S1x2) off00]
  exact k5_pay3_apply s x2 x3 x4 g o

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

abbrev hblk (c : Dev nD) (t : Fin cfg5.N) : Vec Ideal S2000x128 .f32 := iblk5 V c 0 t
abbrev bblk (c : Dev nD) (t : Fin cfg5.N) : Vec Ideal S2000x1 .i32 := iblk5 V c 1 t
abbrev cblk (c : Dev nD) (t : Fin cfg5.N) : Vec Ideal S512x1 .f32 := iblk5 V c 2 t
abbrev wblk (c : Dev nD) (t : Fin cfg5.N) : Vec Ideal S128x2 .f32 := iblk5 V c 3 t
abbrev lblk (c : Dev nD) (t : Fin cfg5.N) : Vec Ideal S1x2 .f32 := iblk5 V c 4 t
abbrev hArr (c : Dev nD) : Vec Ideal S50000x128 .f32 := V c main_v59
abbrev bArr (c : Dev nD) : Vec Ideal S50000x1 .i32 := V c main_v74
abbrev cArr (c : Dev nD) : Vec Ideal S512x1 .f32 := V c main_v73
abbrev wArr (c : Dev nD) : Vec Ideal S128x2 .f32 := V c main_arg7
abbrev lArr (c : Dev nD) : Vec Ideal S1x2 .f32 := V c main_v75

theorem hblk_apply (c : Dev nD) (t : Fin cfg5.N) (r : Fin 2000) (k : Fin 128) (hr : 2000 * t.val + r.val < 50000) :
    hblk V c t (ix2 r k) = hArr V c (ix2 ⟨2000 * t.val + r.val, hr⟩ k) := by
  obtain ⟨e0, e1, -⟩ := idx_facts5 t
  show V c main_v59 (((cfg5.win 0).blk t).view.emb (ix2 r k)) = V c main_v59 (ix2 ⟨2000 * t.val + r.val, hr⟩ k)
  refine congrArg (V c main_v59) ?_
  funext a; apply Fin.ext
  match a with
  | ⟨0, _⟩ => show win5_0.index t (0 : Fin 2) * 2000 + 1 * r.val = 2000 * t.val + r.val; omega
  | ⟨1, _⟩ => show win5_0.index t (1 : Fin 2) * 128 + 1 * k.val = k.val; omega

theorem bblk_apply (c : Dev nD) (t : Fin cfg5.N) (r : Fin 2000) (hr : 2000 * t.val + r.val < 50000) :
    bblk V c t (ix2 r 0) = bArr V c (ix2 ⟨2000 * t.val + r.val, hr⟩ 0) := by
  obtain ⟨-, -, e0, e1, -⟩ := idx_facts5 t
  show V c main_v74 (((cfg5.win 1).blk t).view.emb (ix2 r 0)) = V c main_v74 (ix2 ⟨2000 * t.val + r.val, hr⟩ 0)
  refine congrArg (V c main_v74) ?_
  funext a; apply Fin.ext
  match a with
  | ⟨0, _⟩ => show win5_1.index t (0 : Fin 2) * 2000 + 1 * r.val = 2000 * t.val + r.val; omega
  | ⟨1, _⟩ => show win5_1.index t (1 : Fin 2) * 1 + 1 * 0 = 0; omega

theorem cblk_apply (c : Dev nD) (t : Fin cfg5.N) (g : Fin 512) : cblk V c t (ix2 g 0) = cArr V c (ix2 g 0) := by
  obtain ⟨-, -, -, -, e0, e1, -⟩ := idx_facts5 t
  show V c main_v73 (((cfg5.win 2).blk t).view.emb (ix2 g 0)) = V c main_v73 (ix2 g 0)
  refine congrArg (V c main_v73) ?_
  funext a; apply Fin.ext
  match a with
  | ⟨0, _⟩ => show win5_2.index t (0 : Fin 2) * 512 + 1 * g.val = g.val; omega
  | ⟨1, _⟩ => show win5_2.index t (1 : Fin 2) * 1 + 1 * 0 = 0; omega

theorem wblk_apply (c : Dev nD) (t : Fin cfg5.N) (k : Fin 128) (o : Fin 2) : wblk V c t (ix2 k o) = wArr V c (ix2 k o) := by
  obtain ⟨-, -, -, -, -, -, e0, e1, -⟩ := idx_facts5 t
  show V c main_arg7 (((cfg5.win 3).blk t).view.emb (ix2 k o)) = V c main_arg7 (ix2 k o)
  refine congrArg (V c main_arg7) ?_
  funext a; apply Fin.ext
  match a with
  | ⟨0, _⟩ => show win5_3.index t (0 : Fin 2) * 128 + 1 * k.val = k.val; omega
  | ⟨1, _⟩ => show win5_3.index t (1 : Fin 2) * 2 + 1 * o.val = o.val; omega

theorem lblk_apply (c : Dev nD) (t : Fin cfg5.N) (o : Fin 2) : lblk V c t (ix2 0 o) = lArr V c (ix2 0 o) := by
  obtain ⟨-, -, -, -, -, -, -, -, e0, e1, -⟩ := idx_facts5 t
  show V c main_v75 (((cfg5.win 4).blk t).view.emb (ix2 0 o)) = V c main_v75 (ix2 0 o)
  refine congrArg (V c main_v75) ?_
  funext a; apply Fin.ext
  match a with
  | ⟨0, _⟩ => show win5_4.index t (0 : Fin 2) * 1 + 1 * 0 = 0; omega
  | ⟨1, _⟩ => show win5_4.index t (1 : Fin 2) * 2 + 1 * o.val = o.val; omega

def poolTerm (bt : Vec Ideal S50000x1 .i32) (h : Vec Ideal S50000x128 .f32) (g : Fin 512) (k : Fin 128) (i : ℕ) : EReal :=
  if hi : i < 50000 then memberW (bt (ix2 ⟨i, hi⟩ 0)) g * h (ix2 ⟨i, hi⟩ k) else 0

theorem blockSum (c : Dev nD) (t : Fin cfg5.N) (g : Fin 512) (k : Fin 128) :
    ∑ r : Fin 2000, memberW (bblk V c t (ix2 r 0)) g * hblk V c t (ix2 r k)
      = ∑ r ∈ Finset.range 2000, poolTerm (bArr V c) (hArr V c) g k (2000 * t.val + r) := by
  have hN : t.val < 25 := Nat.lt_of_lt_of_eq t.isLt N_5
  rw [Finset.sum_range]
  refine Finset.sum_congr rfl fun r _ => ?_
  have hr : 2000 * t.val + r.val < 50000 := by have := r.isLt; omega
  unfold poolTerm
  rw [dif_pos hr, hblk_apply V c t r k hr, bblk_apply V c t r hr]

theorem scAt5_apply (c : Dev nD) (g : Fin 512) (k : Fin 128) : ∀ (n : ℕ) (hn : n < cfg5.N),
    scAt5 V c n hn (ix2 g k) = ∑ i ∈ Finset.range (2000 * (n + 1)), poolTerm (bArr V c) (hArr V c) g k i
  | 0, hn => by
    show acc5 (iblk5 V c 1 ⟨0, hn⟩) (iblk5 V c 0 ⟨0, hn⟩) (View.ld (View.canon [⟨rE, k5_pay1 (F := Ideal)⟩]) rE) (ix2 g k) = _
    refine (acc5_apply (bblk V c ⟨0, hn⟩) (hblk V c ⟨0, hn⟩) (View.ld (View.canon [⟨rE, k5_pay1 (F := Ideal)⟩]) rE) g k).trans ?_
    rw [View.ld_unit_zero (S := S512x128) off00, View.canon_unit_zero off00, k5_pay1_apply, zero_add, blockSum V c ⟨0, hn⟩ g k]
    refine Finset.sum_congr rfl fun r _ => ?_
    show poolTerm (bArr V c) (hArr V c) g k (2000 * 0 + r) = _
    rw [Nat.mul_zero, Nat.zero_add]
  | n + 1, hn => by
    show acc5 (iblk5 V c 1 ⟨n + 1, hn⟩) (iblk5 V c 0 ⟨n + 1, hn⟩) (View.ld (scAt5 V c n (Nat.lt_of_succ_lt hn)) rE) (ix2 g k) = _
    refine (acc5_apply (bblk V c ⟨n + 1, hn⟩) (hblk V c ⟨n + 1, hn⟩) (View.ld (scAt5 V c n (Nat.lt_of_succ_lt hn)) rE) g k).trans ?_
    rw [View.ld_unit_zero (S := S512x128) off00, scAt5_apply c g k n (Nat.lt_of_succ_lt hn), blockSum V c ⟨n + 1, hn⟩ g k,
      show 2000 * (n + 1 + 1) = 2000 * (n + 1) + 2000 from by omega, Finset.sum_range_add]

theorem scAt5_last (c : Dev nD) (t : Fin cfg5.N) (h24 : t.val = 24) (g : Fin 512) (k : Fin 128) :
    scAt5 V c t.val t.isLt (ix2 g k) = ∑ n : Fin 50000, memberW (bArr V c (ix2 n 0)) g * hArr V c (ix2 n k) := by
  rw [scAt5_apply V c g k t.val t.isLt, h24, Finset.sum_range]
  refine Finset.sum_congr rfl fun n _ => ?_
  unfold poolTerm
  rw [dif_pos n.isLt]

abbrev G5 (c : Dev nD) : Vec Ideal S512x2 .f32 :=
  fun i => poolAt (hArr V c) (bArr V c) (cArr V c) (wArr V c) (lArr V c) (i 0) (i 1)

theorem flushed5_eq (c : Dev nD) (t : Fin cfg5.N) (hf : (cfg5.win 5).flush t = true) :
    (dat5 V c).flushed 5 t = ((cfg5.win 5).blk t).view.read (Elt Ideal) (G5 V c) := by
  have hN : t.val < 25 := Nat.lt_of_lt_of_eq t.isLt N_5
  have h24 : t.val = 24 := by have := (flush5_5 t).mp hf; omega
  obtain ⟨-, -, -, -, -, -, -, -, -, -, e0, e1⟩ := idx_facts5 t
  funext y
  obtain ⟨g, o, rfl⟩ : ∃ (g : Fin 512) (o : Fin 2), y = ix2 g o := ⟨y 0, y 1, eq_ix2 y⟩
  show out5_5 (scAt5 V c t.val t.isLt) (iblk5 V c 2 t) (iblk5 V c 3 t) (iblk5 V c 4 t) (ix2 g o)
    = G5 V c (((cfg5.win 5).blk t).view.emb (ix2 g o))
  have hemb : ((cfg5.win 5).blk t).view.emb (ix2 g o) = ix2 g o := by
    funext a; apply Fin.ext
    match a with
    | ⟨0, _⟩ => show win5_5.index t (0 : Fin 2) * 512 + 1 * g.val = g.val; omega
    | ⟨1, _⟩ => show win5_5.index t (1 : Fin 2) * 2 + 1 * o.val = o.val; omega
  rw [hemb]
  refine (out5_5_apply (scAt5 V c t.val t.isLt) (cblk V c t) (wblk V c t) (lblk V c t) g o).trans ?_
  show _ = poolAt (hArr V c) (bArr V c) (cArr V c) (wArr V c) (lArr V c) g o
  unfold poolAt
  rw [cblk_apply V c t g, lblk_apply V c t o]
  refine congrArg (· + lArr V c (ix2 0 o)) ?_
  refine Finset.sum_congr rfl fun k _ => ?_
  rw [scAt5_last V c t h24 g k, wblk_apply V c t k o]

theorem mem_blk5 (t : Fin cfg5.N) (i : S512x2.Idx) :
    i ∈ ((cfg5.win 5).blk t).view.set ↔ ∀ a : Fin 2, win5_5.index t a * S512x2.size a ≤ (i a).val
      ∧ (i a).val < win5_5.index t a * S512x2.size a + S512x2.size a := by
  show i ∈ ((View.whole main_v76).slice (win5_5.rect t)).set ↔ _
  rw [View.set_slice_whole, Rect.mem_set_unit]
  exact Iff.rfl

theorem cover5 (i : S512x2.Idx) :
    ∃ t : Fin cfg5.N, (cfg5.win 5).flush t = true ∧ i ∈ ((cfg5.win 5).blk t).view.set := by
  have h24 : (24 : ℕ) < cfg5.N := by rw [show cfg5.N = 25 from N_5]; decide
  refine ⟨⟨24, h24⟩, (flush5_5 ⟨24, h24⟩).mpr rfl, ?_⟩
  obtain ⟨-, -, -, -, -, -, -, -, -, -, e0, e1⟩ := idx_facts5 ⟨24, h24⟩
  rw [mem_blk5]
  intro a
  have h0 : (i 0).val < 512 := (i 0).isLt
  have h1 : (i 1).val < 2 := (i 1).isLt
  match a with
  | ⟨0, _⟩ =>
    show win5_5.index ⟨24, h24⟩ (0 : Fin 2) * 512 ≤ (i 0).val ∧ (i 0).val < win5_5.index ⟨24, h24⟩ (0 : Fin 2) * 512 + 512
    omega
  | ⟨1, _⟩ =>
    show win5_5.index ⟨24, h24⟩ (1 : Fin 2) * 2 ≤ (i 1).val ∧ (i 1).val < win5_5.index ⟨24, h24⟩ (1 : Fin 2) * 2 + 2
    omega

theorem final5 (c : Dev nD) (g : Fin 512) (o : Fin 2) :
    (dat5 V c).arrAt 5 cfg5.N (ix2 g o)
      = poolAt (V c main_v59) (V c main_v74) (V c main_v73) (V c main_arg7) (V c main_v75) g o :=
  congrFun ((dat5 V c).arrAt_eq_of_cover 5 (G5 V c) (fun t hf => flushed5_eq V c t hf) cover5) (ix2 g o)

end Cert.KernelIdeal.Hand

end
-- ==== Proof.KISlice.lean ====
import proofs.«405176_j18674517803330_2_alg».proof.KernelIdeal
import proofs.«405176_j18674517803330_2_alg».proof.Proof.Gen.KernelIdeal
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

theorem slice500_apply (v : Vec Ideal S512x2 .f32) (g : Fin 500) (o : Fin 2) :
    extractStridedSlice S500x2 ![0, 0] v slices_S512x2_S500x2_0_0 (ix2 g o) = v (ix2 ⟨g.val, by omega⟩ o) :=
  slice2_axis0_apply 0 v slices_S512x2_S500x2_0_0 g o ⟨g.val, by omega⟩ (Nat.zero_add _).symm

theorem cast_col_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

end Cert.KernelIdeal.Hand

end
-- ==== Proof.KIPre.lean ====
import proofs.«405176_j18674517803330_2_alg».proof.Proof.KIDefs
import proofs.«405176_j18674517803330_2_alg».proof.Pre_finite_inputs
import proofs.«405176_j18674517803330_2_alg».proof.Proof.Gen.Pre_finite_inputs
import Idealize.ShloMosaic.Lib.ReduceAll
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

instance subsingleton_scalarIdx : Subsingleton Cert.Pre_finite_inputs.S_.Idx := ⟨fun a b => funext fun d => d.elim0⟩

theorem inf_word : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h1 : BitVec.ofBool (decide (max x (-x) < Ideal.ofBits .f32 0x7F800000#32)) = 1#1 := h
  rw [inf_word] at h1
  have hb : ∀ b : Bool, BitVec.ofBool b = 1#1 → b = true := by decide
  have h2 : max x (-x) < (⊤ : EReal) := of_decide_eq_true (hb _ h1)
  induction x using EReal.rec with
  | bot => simp at h2
  | coe r => exact ⟨r, rfl⟩
  | top => simp at h2

theorem nonneg_of_sge_zero (v : BitVec 32) (h : IntOp.cmpi .sge v 0#32 = 1#1) : 0 ≤ v.toInt := by
  have := IntOp.cmpi_sge.1 h
  rwa [show (0#32 : BitVec 32).toInt = 0 from by decide] at this

section

variable (a0 : FVec Ideal Cert.Pre_finite_inputs.S50000x1 .f32) (a1 : FVec Ideal Cert.Pre_finite_inputs.S1x128 .f32)
  (a2 : FVec Ideal Cert.Pre_finite_inputs.S128 .f32) (a3 : FVec Ideal Cert.Pre_finite_inputs.S128x128 .f32)
  (a4 : FVec Ideal Cert.Pre_finite_inputs.S128 .f32) (a5 : FVec Ideal Cert.Pre_finite_inputs.S128x128 .f32)
  (a6 : FVec Ideal Cert.Pre_finite_inputs.S128 .f32) (a7 : FVec Ideal Cert.Pre_finite_inputs.S128x2 .f32)
  (a8 : FVec Ideal Cert.Pre_finite_inputs.S2 .f32) (a9 : IVec Cert.Pre_finite_inputs.S2x600000 32)
  (a10 : IVec Cert.Pre_finite_inputs.S50000 32)

theorem pre_all (h : Cert.Pre_finite_inputs.fn (F := Ideal) a0 a1 a2 a3 a4 a5 a6 a7 a8 a9 a10 = (fun _ => 1#1)) :
    (∀ j, ∃ r : ℝ, a0 j = (r : EReal)) ∧ (∀ j, ∃ r : ℝ, a1 j = (r : EReal)) ∧ (∀ j, ∃ r : ℝ, a2 j = (r : EReal)) ∧
    (∀ j, ∃ r : ℝ, a3 j = (r : EReal)) ∧ (∀ j, ∃ r : ℝ, a4 j = (r : EReal)) ∧ (∀ j, ∃ r : ℝ, a5 j = (r : EReal)) ∧
    (∀ j, ∃ r : ℝ, a6 j = (r : EReal)) ∧ (∀ j, ∃ r : ℝ, a7 j = (r : EReal)) ∧ (∀ j, ∃ r : ℝ, a8 j = (r : EReal)) ∧
    (∀ j, 0 ≤ (a10 j).toInt) := by
  have h0 := congrFun h ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨⟨e0, e1⟩, e2⟩, e3⟩, e4⟩, e5⟩, e6⟩, e7⟩, e8⟩, e10⟩ := h0
  exact ⟨fun j => real_of_abs_lt_inf _ (Host.reduce_andi_all _ _ _ _ _ e0 j),
    fun j => real_of_abs_lt_inf _ (Host.reduce_andi_all _ _ _ _ _ e1 j),
    fun j => real_of_abs_lt_inf _ (Host.reduce_andi_all _ _ _ _ _ e2 j),
    fun j => real_of_abs_lt_inf _ (Host.reduce_andi_all _ _ _ _ _ e3 j),
    fun j => real_of_abs_lt_inf _ (Host.reduce_andi_all _ _ _ _ _ e4 j),
    fun j => real_of_abs_lt_inf _ (Host.reduce_andi_all _ _ _ _ _ e5 j),
    fun j => real_of_abs_lt_inf _ (Host.reduce_andi_all _ _ _ _ _ e6 j),
    fun j => real_of_abs_lt_inf _ (Host.reduce_andi_all _ _ _ _ _ e7 j),
    fun j => real_of_abs_lt_inf _ (Host.reduce_andi_all _ _ _ _ _ e8 j),
    fun j => nonneg_of_sge_zero _ (Host.reduce_andi_all _ _ _ _ _ e10 j)⟩

variable (h : Cert.Pre_finite_inputs.fn (F := Ideal) a0 a1 a2 a3 a4 a5 a6 a7 a8 a9 a10 = (fun _ => 1#1))
include h

theorem fin_0 : ∀ j, ∃ r : ℝ, a0 j = (r : EReal) := (pre_all a0 a1 a2 a3 a4 a5 a6 a7 a8 a9 a10 h).1
theorem fin_1 : ∀ j, ∃ r : ℝ, a1 j = (r : EReal) := (pre_all a0 a1 a2 a3 a4 a5 a6 a7 a8 a9 a10 h).2.1
theorem fin_2 : ∀ j, ∃ r : ℝ, a2 j = (r : EReal) := (pre_all a0 a1 a2 a3 a4 a5 a6 a7 a8 a9 a10 h).2.2.1
theorem fin_3 : ∀ j, ∃ r : ℝ, a3 j = (r : EReal) := (pre_all a0 a1 a2 a3 a4 a5 a6 a7 a8 a9 a10 h).2.2.2.1
theorem fin_4 : ∀ j, ∃ r : ℝ, a4 j = (r : EReal) := (pre_all a0 a1 a2 a3 a4 a5 a6 a7 a8 a9 a10 h).2.2.2.2.1
theorem fin_5 : ∀ j, ∃ r : ℝ, a5 j = (r : EReal) := (pre_all a0 a1 a2 a3 a4 a5 a6 a7 a8 a9 a10 h).2.2.2.2.2.1
theorem fin_6 : ∀ j, ∃ r : ℝ, a6 j = (r : EReal) := (pre_all a0 a1 a2 a3 a4 a5 a6 a7 a8 a9 a10 h).2.2.2.2.2.2.1
theorem batch_nonneg : ∀ j, 0 ≤ (a10 j).toInt := (pre_all a0 a1 a2 a3 a4 a5 a6 a7 a8 a9 a10 h).2.2.2.2.2.2.2.2.2

end

end Cert.KernelIdeal.Hand

end
-- ==== Proof.LibGatherScatter.lean ====
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

def clampIdx (N : Nat) (hN : 0 < N) (v : BitVec 32) : Fin N := ⟨min v.toInt.toNat (N - 1), by omega⟩

theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by

  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>

    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>

    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1

  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

def wrapW (n : BitVec 32) (v : BitVec 32) : BitVec 32 := if v.toInt < 0 then v + n else v

theorem wrapW_of_nonneg {n v : BitVec 32} (h : 0 ≤ v.toInt) : wrapW n v = v := by
  unfold wrapW
  rw [if_neg (not_lt.mpr h)]

theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.KIBridge1.lean ====
import proofs.«405176_j18674517803330_2_alg».proof.Proof.KISpec
import proofs.«405176_j18674517803330_2_alg».proof.Proof.KIHost
import proofs.«405176_j18674517803330_2_alg».proof.Proof.KIRef
import proofs.«405176_j18674517803330_2_alg».proof.Proof.LibGatherScatter
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Data.EReal.Basic
import Mathlib.Data.EReal.Operations
import Mathlib.Analysis.Real.Sqrt
import Mathlib.Algebra.BigOperators.Group.Finset.Basic
import Mathlib.Algebra.BigOperators.Ring.Finset
import Mathlib.Tactic.Ring
import Mathlib.Tactic.Positivity

set_option maxRecDepth 16384

noncomputable section

namespace Cert.KernelIdeal.Hand

open Cert.KernelIdeal Cert.KernelIdeal.Gen
open Idealize.ShloMosaic Idealize.ShloMosaic.ValueIdx
open Cert.LibGatherScatter

theorem coe_sum_real {ι : Type} (s : Finset ι) (g : ι → ℝ) : ((∑ e ∈ s, g e : ℝ) : EReal) = ∑ e ∈ s, ((g e : ℝ) : EReal) := by
  classical
  refine Finset.induction_on s (by simp) ?_
  intro a s ha ih
  rw [Finset.sum_insert ha, Finset.sum_insert ha, EReal.coe_add, ih]

theorem dinv_eq (ei : Vec Ideal S2x600000 .i32) : dinvOf ei = Cert.ReferenceIdeal.Hand.refDinv (F := Ideal) ei := rfl

def landW (ei : Vec Ideal S2x600000 .i32) (j : Fin 50000) : Finset (Fin 600000) :=
  Finset.univ.filter (fun e : Fin 600000 => (wrapW 50000#32 (dstOf ei (ix1 e))).toInt = (j.val : ℤ))

theorem deg_apply (ei : Vec Ideal S2x600000 .i32) (j : Fin 50000) :
    degOf ei (ix1 j) = ((((landW ei j).card : ℝ) + 1 : ℝ) : EReal) := by
  unfold degOf
  rw [addf_apply, scatterAdd1_apply scatter_S50000_S600000x1_S600000_n_0_0_1 rfl rfl rfl rfl]
  rw [broadcastInDim_scalar_apply, broadcastInDim_scalar_apply, constant_apply, constant_apply,
    Ideal.ofBits_zero_f32, Ideal.ofBits_one_f32, zero_add]
  have hs : (∑ e ∈ Finset.univ.filter (fun e : Fin 600000 => (colE (wrapN (dstOf ei)) (ix2 e 0)).toInt = (j.val : ℤ)),
      broadcastInDim S600000 ![] bcast_S_S600000 (constant (F := Ideal) S_ .f32 0x3F800000#32) (ix1 e))
      = (((landW ei j).card : ℝ) : EReal) := by
    have hf : Finset.univ.filter (fun e : Fin 600000 => (colE (wrapN (dstOf ei)) (ix2 e 0)).toInt = (j.val : ℤ)) = landW ei j := by
      unfold landW
      refine Finset.filter_congr fun e _ => ?_
      unfold colE wrapN
      rw [bcast_col_apply, wrap_apply]
    rw [hf]
    have h1 : ∀ e ∈ landW ei j, broadcastInDim S600000 ![] bcast_S_S600000 (constant (F := Ideal) S_ .f32 0x3F800000#32) (ix1 e) = (((1 : ℝ)) : EReal) := by
      intro e _
      rw [broadcastInDim_scalar_apply, constant_apply, Ideal.ofBits_one_f32]; rfl
    rw [Finset.sum_congr rfl h1, ← coe_sum_real, Finset.sum_const, nsmul_eq_mul, mul_one]
  rw [hs, EReal.coe_add]; rfl

theorem dinv_real (ei : Vec Ideal S2x600000 .i32) (j : Fin 50000) : ∃ r : ℝ, 0 < r ∧ dinvOf ei (ix1 j) = (r : EReal) := by
  have hpos : (0 : ℝ) < ((landW ei j).card : ℝ) + 1 := by positivity
  refine ⟨(Real.sqrt (((landW ei j).card : ℝ) + 1))⁻¹, inv_pos.2 (Real.sqrt_pos.2 hpos), ?_⟩
  unfold dinvOf Host.rsqrt
  rw [Ideal.hostUnary_rsqrt_def, deg_apply, Ideal.rsqrt_coe, if_neg (not_lt.2 hpos.le), if_neg hpos.ne']

def landR (ei : Vec Ideal S2x600000 .i32) (i : Fin 50000) : Finset (Fin 600000) :=
  Finset.univ.filter (fun e : Fin 600000 => (dstOf ei (ix1 e)).toInt = (i.val : ℤ))

def csOf (ei : Vec Ideal S2x600000 .i32) (e : Fin 600000) : Fin 50000 :=
  clampIdx 50000 (by decide) (wrapW 50000#32 (srcOf ei (ix1 e)))

def cdOf (ei : Vec Ideal S2x600000 .i32) (e : Fin 600000) : Fin 50000 :=
  clampIdx 50000 (by decide) (wrapW 50000#32 (dstOf ei (ix1 e)))

theorem cdOf_of_land {ei : Vec Ideal S2x600000 .i32} {i : Fin 50000} {e : Fin 600000} (h : e ∈ landR ei i) : cdOf ei e = i := by
  have hv : (dstOf ei (ix1 e)).toInt = (i.val : ℤ) := (Finset.mem_filter.mp h).2
  have hi := i.isLt
  have h0 : 0 ≤ (dstOf ei (ix1 e)).toInt := by omega
  have h1 : (dstOf ei (ix1 e)).toInt < ((50000 : ℕ) : ℤ) := by omega
  apply Fin.ext
  unfold cdOf
  rw [wrapW_of_nonneg h0, clampIdx_of_inRange (by decide) h0 h1, hv]
  exact Int.toNat_natCast _

theorem colE_apply (v : Vec Ideal S600000 .i32) (e : Fin 600000) : colE v (ix2 e 0) = v (ix1 e) := by
  unfold colE; exact bcast_col_apply _ v e 0

theorem colwrap_apply (v : Vec Ideal S600000 .i32) (e : Fin 600000) : colE (wrapN v) (ix2 e 0) = wrapW 50000#32 (v (ix1 e)) := by
  rw [colE_apply]; unfold wrapN; exact wrap_apply _ _ _ v (ix1 e)

theorem refWrap_wrapW (v : Vec Ideal S600000 .i32) (e : Fin 600000) :
    Cert.ReferenceIdeal.Hand.refWrap v (ix2 e 0) = wrapW 50000#32 (v (ix1 e)) := by
  unfold Cert.ReferenceIdeal.Hand.refWrap; rw [bcast_col_apply]; exact wrap_apply _ _ _ v (ix1 e)

theorem across_E_apply {α : Type} (h : (⟨2, ![600000, 1]⟩ : Shape).BroadcastsInDim ⟨2, ![600000, 128]⟩ ![0, 1])
    (v : (⟨2, ![600000, 1]⟩ : Shape).Idx → α) (e : Fin 600000) (f : Fin 128) :
    broadcastInDim ⟨2, ![600000, 128]⟩ ![0, 1] h v (ix2 e f) = v (ix2 e 0) :=
  broadcastInDim_apply _ h v (ix2 e f) (ix2 e 0) (fun a => by
    match a with
    | ⟨0, _⟩ => rfl
    | ⟨1, _⟩ => rfl)

theorem across_N_apply {α : Type} (h : (⟨2, ![50000, 1]⟩ : Shape).BroadcastsInDim ⟨2, ![50000, 128]⟩ ![0, 1])
    (v : (⟨2, ![50000, 1]⟩ : Shape).Idx → α) (i : Fin 50000) (f : Fin 128) :
    broadcastInDim ⟨2, ![50000, 128]⟩ ![0, 1] h v (ix2 i f) = v (ix2 i 0) :=
  broadcastInDim_apply _ h v (ix2 i f) (ix2 i 0) (fun a => by
    match a with
    | ⟨0, _⟩ => rfl
    | ⟨1, _⟩ => rfl)

theorem down_N_apply {α : Type} (h : (⟨2, ![1, 128]⟩ : Shape).BroadcastsInDim ⟨2, ![50000, 128]⟩ ![0, 1])
    (v : (⟨2, ![1, 128]⟩ : Shape).Idx → α) (i : Fin 50000) (f : Fin 128) :
    broadcastInDim ⟨2, ![50000, 128]⟩ ![0, 1] h v (ix2 i f) = v (ix2 0 f) :=
  broadcastInDim_apply _ h v (ix2 i f) (ix2 0 f) (fun a => by
    match a with
    | ⟨0, _⟩ => rfl
    | ⟨1, _⟩ => rfl)

theorem row_apply {α : Type} (h : (⟨1, ![128]⟩ : Shape).BroadcastsInDim ⟨2, ![1, 128]⟩ ![1])
    (v : (⟨1, ![128]⟩ : Shape).Idx → α) (z : Fin 1) (f : Fin 128) :
    broadcastInDim ⟨2, ![1, 128]⟩ ![1] h v (ix2 z f) = v (ix1 f) :=
  broadcastInDim_apply _ h v (ix2 z f) (ix1 f) (fun a => by
    match a with
    | ⟨0, _⟩ => rfl)

theorem xsOf_apply (x : Vec Ideal S50000x1 .f32) (ei : Vec Ideal S2x600000 .i32) (j : Fin 50000) :
    xsOf x ei (ix1 j) = x (ix2 j 0) * dinvOf ei (ix1 j) := by
  unfold xsOf
  rw [mulf_apply, shapeCast_apply x shapeCasts_S50000x1_S50000 (ix1 j) (ix2 j 0)
    (by rw [Shape.rowMajor_val_two, Shape.rowMajor_val_one]; show j.val * 1 + 0 = j.val; omega)]

theorem tOf_apply (x : Vec Ideal S50000x1 .f32) (ei : Vec Ideal S2x600000 .i32) (i : Fin 50000) :
    tOf x ei (ix1 i) = dinvOf ei (ix1 i) * ((∑ e ∈ landR ei i, x (ix2 (csOf ei e) 0) * dinvOf ei (ix1 (csOf ei e)))
      + x (ix2 i 0) * dinvOf ei (ix1 i)) := by
  have hf : Finset.univ.filter (fun e : Fin 600000 => (colE (dstOf ei) (ix2 e 0)).toInt = (i.val : ℤ)) = landR ei i := by
    unfold landR
    refine Finset.filter_congr fun e _ => ?_
    rw [colE_apply]
  have hg : ∀ e ∈ landR ei i, Host.gather gather_S50000_S600000x1_S600000_n_0_n_n_0_1_1 (xsOf x ei) (colE (wrapN (srcOf ei))) (ix1 e)
      = x (ix2 (csOf ei e) 0) * dinvOf ei (ix1 (csOf ei e)) := by
    intro e _
    rw [gather1_apply (by decide) gather_S50000_S600000x1_S600000_n_0_n_n_0_1_1 rfl rfl rfl rfl, colwrap_apply, xsOf_apply]
    rfl
  unfold tOf
  rw [mulf_apply, addf_apply, scatterAdd1_apply scatter_S50000_S600000x1_S600000_n_0_0_1 rfl rfl rfl rfl,
    broadcastInDim_scalar_apply, constant_apply, Ideal.ofBits_zero_f32, zero_add, xsOf_apply, hf, Finset.sum_congr rfl hg]

abbrev dotR : DotDims Cert.ReferenceIdeal.S50000x1 Cert.ReferenceIdeal.S1x128 Cert.ReferenceIdeal.S50000x128 :=
  Cert.ReferenceIdeal.dot_S50000x1_S1x128_S50000x128_1_0_0_1_n_n

theorem dotR_apply (x : Vec Ideal S50000x1 .f32) (w1 : Vec Ideal S1x128 .f32) (j : Fin 50000) (f : Fin 128) :
    Host.dotGeneral (F := Ideal) (φ₁ := .f32) (φ₂ := .f32) dotR none x w1 (ix2 j f) = x (ix2 j 0) * w1 (ix2 0 f) := by
  have l0 : ∀ q : dotR.contr.Idx, (dotR.lhsIdx (ix2 j f) q 0).val = j.val := fun q => by
    unfold DotDims.lhsIdx
    rw [dif_neg (show ¬(0 : Fin Cert.ReferenceIdeal.S50000x1.rank) ∈ dotR.lhsBatch by decide),
      dif_pos (show (0 : Fin Cert.ReferenceIdeal.S50000x1.rank) ∈ dotR.lhsNonContracting by decide)]
    rfl
  have l1 : ∀ q : dotR.contr.Idx, (dotR.lhsIdx (ix2 j f) q 1).val = (q ⟨0, by decide⟩).val := fun q =>
    dotR.lhsIdx_val_of_single rfl (ix2 j f) q
  have r0 : ∀ q : dotR.contr.Idx, (dotR.rhsIdx (ix2 j f) q 0).val = (q ⟨0, by decide⟩).val := fun q =>
    dotR.rhsIdx_val_of_single rfl (ix2 j f) q
  have r1 : ∀ q : dotR.contr.Idx, (dotR.rhsIdx (ix2 j f) q 1).val = f.val := fun q => by
    unfold DotDims.rhsIdx
    rw [dif_neg (show ¬(1 : Fin Cert.ReferenceIdeal.S1x128.rank) ∈ dotR.rhsBatch by decide),
      dif_pos (show (1 : Fin Cert.ReferenceIdeal.S1x128.rank) ∈ dotR.rhsNonContracting by decide)]
    rfl
  have hk := contrEquiv1_symm_val dotR 1 rfl rfl (0 : Fin 1)
  have el : dotR.lhsIdx (ix2 j f) ((contrEquiv1 dotR 1 rfl rfl).symm 0) = ix2 j 0 :=
    funext fun a => Fin.ext (by
      match a with
      | ⟨0, _⟩ => exact l0 _
      | ⟨1, _⟩ => exact (l1 _).trans hk)
  have er : dotR.rhsIdx (ix2 j f) ((contrEquiv1 dotR 1 rfl rfl).symm 0) = ix2 0 f :=
    funext fun a => Fin.ext (by
      match a with
      | ⟨0, _⟩ => exact (r0 _).trans hk
      | ⟨1, _⟩ => exact r1 _)
  simp only [Host.dotGeneral]
  rw [Ideal.dotGeneral_apply, ← Equiv.sum_comp (contrEquiv1 dotR 1 rfl rfl).symm, Fin.sum_univ_one, el, er]

theorem refNorm_at (ei : Vec Ideal S2x600000 .i32) (e : Fin 600000) :
    Cert.ReferenceIdeal.Hand.refNorm (F := Ideal) ei (ix1 e) = dinvOf ei (ix1 (csOf ei e)) * dinvOf ei (ix1 (cdOf ei e)) := by
  unfold Cert.ReferenceIdeal.Hand.refNorm
  rw [mulf_apply,
    gather1_apply (by decide) Cert.ReferenceIdeal.gather_S50000_S600000x1_S600000_n_0_n_n_0_1_1 rfl rfl rfl rfl,
    gather1_apply (by decide) Cert.ReferenceIdeal.gather_S50000_S600000x1_S600000_n_0_n_n_0_1_1 rfl rfl rfl rfl,
    refWrap_wrapW, refWrap_wrapW, ← dinv_eq]
  rfl

theorem refConv1_at (x : Vec Ideal S50000x1 .f32) (w1 : Vec Ideal S1x128 .f32) (b1 : Vec Ideal S128 .f32)
    (ei : Vec Ideal S2x600000 .i32) (i : Fin 50000) (f : Fin 128) :
    Cert.ReferenceIdeal.Hand.refConv1 (F := Ideal) x w1 b1 ei (ix2 i f)
      = ((∑ e ∈ landR ei i, (x (ix2 (csOf ei e) 0) * w1 (ix2 0 f)) * (dinvOf ei (ix1 (csOf ei e)) * dinvOf ei (ix1 i)))
          + (x (ix2 i 0) * w1 (ix2 0 f)) * (dinvOf ei (ix1 i) * dinvOf ei (ix1 i))) + b1 (ix1 f) := by
  have hf : Finset.univ.filter (fun e : Fin 600000 =>
      (broadcastInDim Cert.ReferenceIdeal.S600000x1 ![0] Cert.ReferenceIdeal.Gen.bcast_S600000_S600000x1_0
        (Cert.ReferenceIdeal.Hand.refDst ei) (ix2 e 0)).toInt = (i.val : ℤ)) = landR ei i := by
    unfold landR
    refine Finset.filter_congr fun e _ => ?_
    rw [bcast_col_apply]
    rfl
  have hg : ∀ e ∈ landR ei i,
      mulf (F := Ideal) (φ := .f32) (Host.gather Cert.ReferenceIdeal.gather_S50000x128_S600000x1_S600000x128_1_0_n_n_0_1_1128
          (Host.dotGeneral (F := Ideal) (φ₁ := .f32) (φ₂ := .f32) dotR none x w1)
          (Cert.ReferenceIdeal.Hand.refWrap (Cert.ReferenceIdeal.Hand.refSrc ei)))
        (broadcastInDim Cert.ReferenceIdeal.S600000x128 ![0, 1] Cert.ReferenceIdeal.Gen.bcast_S600000x1_S600000x128_0_1
          (broadcastInDim Cert.ReferenceIdeal.S600000x1 ![0] Cert.ReferenceIdeal.Gen.bcast_S600000_S600000x1_0
            (Cert.ReferenceIdeal.Hand.refNorm (F := Ideal) ei))) (ix2 e f)
      = (x (ix2 (csOf ei e) 0) * w1 (ix2 0 f)) * (dinvOf ei (ix1 (csOf ei e)) * dinvOf ei (ix1 i)) := by
    intro e he
    rw [mulf_apply,
      gather2_apply (by decide) Cert.ReferenceIdeal.gather_S50000x128_S600000x1_S600000x128_1_0_n_n_0_1_1128 rfl rfl rfl rfl rfl,
      refWrap_wrapW, dotR_apply, across_E_apply, bcast_col_apply, refNorm_at, cdOf_of_land he]
    rfl
  unfold Cert.ReferenceIdeal.Hand.refConv1 Cert.ReferenceIdeal.Hand.refAgg
  rw [addf_apply, addf_apply,
    scatterAdd2_apply Cert.ReferenceIdeal.scatter_S50000x128_S600000x1_S600000x128_1_0_0_1 rfl rfl rfl rfl,
    broadcastInDim_scalar_apply, constant_apply, Ideal.ofBits_zero_f32, zero_add, hf, Finset.sum_congr rfl hg,
    mulf_apply, dotR_apply, across_N_apply, bcast_col_apply, mulf_apply, ← dinv_eq, down_N_apply, row_apply]

theorem bridge_real {ι : Type} (s : Finset ι) (A De : ι → ℝ) (Di Xi W B : ℝ) :
    (Di * ((∑ e ∈ s, A e * De e) + Xi * Di)) * W + B
      = ((∑ e ∈ s, (A e * W) * (De e * Di)) + (Xi * W) * (Di * Di)) + B := by
  have h : ∑ e ∈ s, (A e * W) * (De e * Di) = (W * Di) * ∑ e ∈ s, A e * De e := by
    rw [Finset.mul_sum]
    exact Finset.sum_congr rfl fun e _ => by ring
  rw [h]; ring

theorem comb1At_tOf (x : Vec Ideal S50000x1 .f32) (w1 : Vec Ideal S1x128 .f32) (b1 : Vec Ideal S128 .f32)
    (ei : Vec Ideal S2x600000 .i32) (i : Fin 50000) (f : Fin 128) :
    comb1At (shapeCast S50000x1 (tOf x ei) shapeCasts_S50000_S50000x1) w1 (shapeCast S1x128 b1 shapeCasts_S128_S1x128) i f
      = max ((dinvOf ei (ix1 i) * ((∑ e ∈ landR ei i, x (ix2 (csOf ei e) 0) * dinvOf ei (ix1 (csOf ei e)))
          + x (ix2 i 0) * dinvOf ei (ix1 i))) * w1 (ix2 0 f) + b1 (ix1 f)) zeroW := by
  unfold comb1At
  rw [shapeCast_apply (tOf x ei) shapeCasts_S50000_S50000x1 (ix2 i 0) (ix1 i)
      (by rw [Shape.rowMajor_val_one, Shape.rowMajor_val_two]; show i.val = i.val * 1 + 0; omega),
    shapeCast_a_1a_apply b1 shapeCasts_S128_S1x128 0 f, tOf_apply]

theorem refRelu_at (h : Vec Ideal S50000x128 .f32) (i : Fin 50000) (f : Fin 128) :
    Cert.ReferenceIdeal.Hand.refRelu (F := Ideal) h (ix2 i f) = max (h (ix2 i f)) zeroW := by
  unfold Cert.ReferenceIdeal.Hand.refRelu
  rw [maximumf_apply, broadcastInDim_scalar_apply, constant_apply]

theorem forms_real (x : Vec Ideal S50000x1 .f32) (w1 : Vec Ideal S1x128 .f32) (b1 : Vec Ideal S128 .f32)
    (ei : Vec Ideal S2x600000 .i32) (hx : ∀ j, ∃ r : ℝ, x j = (r : EReal)) (hw : ∀ j, ∃ r : ℝ, w1 j = (r : EReal))
    (hb : ∀ j, ∃ r : ℝ, b1 j = (r : EReal)) (i : Fin 50000) (f : Fin 128) :
    ∃ r : ℝ,
      (dinvOf ei (ix1 i) * ((∑ e ∈ landR ei i, x (ix2 (csOf ei e) 0) * dinvOf ei (ix1 (csOf ei e)))
          + x (ix2 i 0) * dinvOf ei (ix1 i))) * w1 (ix2 0 f) + b1 (ix1 f) = (r : EReal)
      ∧ ((∑ e ∈ landR ei i, (x (ix2 (csOf ei e) 0) * w1 (ix2 0 f)) * (dinvOf ei (ix1 (csOf ei e)) * dinvOf ei (ix1 i)))
          + (x (ix2 i 0) * w1 (ix2 0 f)) * (dinvOf ei (ix1 i) * dinvOf ei (ix1 i))) + b1 (ix1 f) = (r : EReal) := by
  choose D hD0 using fun j => dinv_real ei j
  have hD : ∀ j, dinvOf ei (ix1 j) = (D j : EReal) := fun j => (hD0 j).2
  choose X hX using fun j : Fin 50000 => hx (ix2 j 0)
  obtain ⟨W, hW⟩ := hw (ix2 0 f)
  obtain ⟨B, hB⟩ := hb (ix1 f)
  refine ⟨(D i * ((∑ e ∈ landR ei i, X (csOf ei e) * D (csOf ei e)) + X i * D i)) * W + B, ?_, ?_⟩
  · simp only [hX, hD, hW, hB, ← EReal.coe_mul, ← EReal.coe_add, ← coe_sum_real]
  · rw [bridge_real]
    simp only [hX, hD, hW, hB, ← EReal.coe_mul, ← EReal.coe_add, ← coe_sum_real]

theorem bridge1 (x : Vec Ideal S50000x1 .f32) (w1 : Vec Ideal S1x128 .f32) (b1 : Vec Ideal S128 .f32) (ei : Vec Ideal S2x600000 .i32)
    (hx : ∀ j, ∃ r : ℝ, x j = (r : EReal)) (hw : ∀ j, ∃ r : ℝ, w1 j = (r : EReal)) (hb : ∀ j, ∃ r : ℝ, b1 j = (r : EReal))
    (i : Fin 50000) (f : Fin 128) :
    comb1At (shapeCast S50000x1 (tOf x ei) shapeCasts_S50000_S50000x1) w1 (shapeCast S1x128 b1 shapeCasts_S128_S1x128) i f
      = Cert.ReferenceIdeal.Hand.refRelu (F := Ideal) (Cert.ReferenceIdeal.Hand.refConv1 x w1 b1 ei) (ix2 i f) := by
  obtain ⟨r, hk, hr⟩ := forms_real x w1 b1 ei hx hw hb i f
  rw [comb1At_tOf, refRelu_at, refConv1_at, hk, hr]

theorem fin1 (x : Vec Ideal S50000x1 .f32) (w1 : Vec Ideal S1x128 .f32) (b1 : Vec Ideal S128 .f32) (ei : Vec Ideal S2x600000 .i32)
    (hx : ∀ j, ∃ r : ℝ, x j = (r : EReal)) (hw : ∀ j, ∃ r : ℝ, w1 j = (r : EReal)) (hb : ∀ j, ∃ r : ℝ, b1 j = (r : EReal))
    (i : Fin 50000) (f : Fin 128) :
    ∃ r : ℝ, comb1At (shapeCast S50000x1 (tOf x ei) shapeCasts_S50000_S50000x1) w1 (shapeCast S1x128 b1 shapeCasts_S128_S1x128) i f = (r : EReal) := by
  obtain ⟨r, hk, _⟩ := forms_real x w1 b1 ei hx hw hb i f
  rw [comb1At_tOf, hk]
  rcases max_choice (r : EReal) zeroW with h | h
  · exact ⟨r, h⟩
  · refine ⟨0, ?_⟩
    rw [h]
    show Ideal.ofBits .f32 0x00000000#32 = _
    rw [Ideal.ofBits_zero_f32, EReal.coe_zero]

end Cert.KernelIdeal.Hand

end
-- ==== Proof.KIBridge23.lean ====
import proofs.«405176_j18674517803330_2_alg».proof.Proof.KISpec
import proofs.«405176_j18674517803330_2_alg».proof.Proof.KIHost
import proofs.«405176_j18674517803330_2_alg».proof.Proof.KIRef
import proofs.«405176_j18674517803330_2_alg».proof.Proof.LibGatherScatter
import proofs.«405176_j18674517803330_2_alg».proof.Proof.KIBridge1
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Data.EReal.Operations
import Mathlib.Algebra.BigOperators.Ring.Finset
import Mathlib.Tactic.Ring

set_option maxRecDepth 16384

noncomputable section

namespace Cert.KernelIdeal.Hand

open Cert.KernelIdeal Cert.KernelIdeal.Gen
open Idealize.ShloMosaic Idealize.ShloMosaic.ValueIdx
open Cert.LibGatherScatter
open Cert.ReferenceIdeal.Hand (refSrc refDst refWrap refDinv refNorm refAgg refConv refRelu)

namespace Conv23

theorem idCol_apply (v : Vec Ideal S600000 .i32) (e : Fin 600000) : colE v (ix2 e 0) = v (ix1 e) :=
  bcast_col_apply bcast_S600000_S600000x1_0 v e 0

theorem wrapN_apply (v : Vec Ideal S600000 .i32) (e : Fin 600000) : wrapN v (ix1 e) = wrapW 50000#32 (v (ix1 e)) :=
  wrap_apply bcast_S_S600000 bcast_S_S600000 50000#32 v (ix1 e)

theorem dcol_apply (d : Vec Ideal S50000 .f32) (j : Fin 50000) :
    shapeCast S50000x1 d shapeCasts_S50000_S50000x1 (ix2 j 0) = d (ix1 j) :=
  shapeCast_apply d shapeCasts_S50000_S50000x1 _ _ (by
    rw [Shape.rowMajor_val_two, Shape.rowMajor_val_one]
    show j.val = j.val * 1 + 0
    omega)

theorem brow_apply (b : Vec Ideal S128 .f32) (f : Fin 128) :
    shapeCast S1x128 b shapeCasts_S128_S1x128 (ix2 0 f) = b (ix1 f) :=
  shapeCast_a_1a_apply b shapeCasts_S128_S1x128 0 f

def csrc (ei : Vec Ideal S2x600000 .i32) (e : Fin 600000) : Fin 50000 :=
  clampIdx 50000 (by decide) (wrapW 50000#32 (srcOf ei (ix1 e)))

def cdst (ei : Vec Ideal S2x600000 .i32) (e : Fin 600000) : Fin 50000 :=
  clampIdx 50000 (by decide) (wrapW 50000#32 (dstOf ei (ix1 e)))

def lands (ei : Vec Ideal S2x600000 .i32) (i : Fin 50000) : Finset (Fin 600000) :=
  Finset.univ.filter fun e => (dstOf ei (ix1 e)).toInt = (i.val : ℤ)

theorem cdst_of_lands {ei : Vec Ideal S2x600000 .i32} {i : Fin 50000} {e : Fin 600000} (h : e ∈ lands ei i) :
    cdst ei e = i := by
  have hd : (dstOf ei (ix1 e)).toInt = (i.val : ℤ) := (Finset.mem_filter.mp h).2
  have h0 : 0 ≤ (dstOf ei (ix1 e)).toInt := by rw [hd]; omega
  have h1 : (dstOf ei (ix1 e)).toInt < (50000 : ℕ) := by rw [hd]; have := i.isLt; omega
  apply Fin.ext
  unfold cdst
  rw [wrapW_of_nonneg h0, clampIdx_of_inRange _ h0 h1, hd]
  exact Int.toNat_natCast _

theorem aggOf_apply (hs : Vec Ideal S50000x128 .f32) (ei : Vec Ideal S2x600000 .i32) (i : Fin 50000) (f : Fin 128) :
    aggOf hs ei (ix2 i f) = zeroW + ∑ e ∈ lands ei i, hs (ix2 (csrc ei e) f) := by
  unfold aggOf aggSD
  rw [scatterAdd2_apply _ rfl rfl rfl rfl]
  refine congrArg₂ (· + ·) rfl ?_
  refine Finset.sum_congr (Finset.filter_congr fun e _ => by rw [idCol_apply]) fun e _ => ?_
  rw [gather2_apply (N := 50000) (by decide) _ rfl rfl rfl rfl rfl, idCol_apply, wrapN_apply]
  rfl

local notation "dotRef" => Cert.ReferenceIdeal.dot_S50000x128_S128x128_S50000x128_1_0_0_1_n_n

theorem refWrap_apply (v : IVec S600000 32) (e : Fin 600000) : refWrap v (ix2 e 0) = wrapW 50000#32 (v (ix1 e)) :=
  (bcast_col_apply _ _ e 0).trans (wrap_apply _ _ 50000#32 v (ix1 e))

theorem spreadE_apply {α : Type} (h : (⟨2, ![600000, 1]⟩ : Shape).BroadcastsInDim ⟨2, ![600000, 128]⟩ ![0, 1])
    (v : (⟨2, ![600000, 1]⟩ : Shape).Idx → α) (e : Fin 600000) (f : Fin 128) :
    broadcastInDim ⟨2, ![600000, 128]⟩ ![0, 1] h v (ix2 e f) = v (ix2 e 0) :=
  broadcastInDim_apply _ h v _ _ (fun a => match a with | ⟨0, _⟩ => rfl | ⟨1, _⟩ => rfl)

theorem spreadN_apply {α : Type} (h : (⟨2, ![50000, 1]⟩ : Shape).BroadcastsInDim ⟨2, ![50000, 128]⟩ ![0, 1])
    (v : (⟨2, ![50000, 1]⟩ : Shape).Idx → α) (i : Fin 50000) (f : Fin 128) :
    broadcastInDim ⟨2, ![50000, 128]⟩ ![0, 1] h v (ix2 i f) = v (ix2 i 0) :=
  broadcastInDim_apply _ h v _ _ (fun a => match a with | ⟨0, _⟩ => rfl | ⟨1, _⟩ => rfl)

theorem spreadRow_apply {α : Type} (h : (⟨2, ![1, 128]⟩ : Shape).BroadcastsInDim ⟨2, ![50000, 128]⟩ ![0, 1])
    (v : (⟨2, ![1, 128]⟩ : Shape).Idx → α) (i : Fin 50000) (f : Fin 128) :
    broadcastInDim ⟨2, ![50000, 128]⟩ ![0, 1] h v (ix2 i f) = v (ix2 0 f) :=
  broadcastInDim_apply _ h v _ _ (fun a => match a with | ⟨0, _⟩ => rfl | ⟨1, _⟩ => rfl)

theorem asRow_apply {α : Type} (h : (⟨1, ![128]⟩ : Shape).BroadcastsInDim ⟨2, ![1, 128]⟩ ![1])
    (v : (⟨1, ![128]⟩ : Shape).Idx → α) (u : Fin 1) (f : Fin 128) :
    broadcastInDim ⟨2, ![1, 128]⟩ ![1] h v (ix2 u f) = v (ix1 f) :=
  broadcastInDim_apply _ h v _ _ (fun a => match a with | ⟨0, _⟩ => rfl)

theorem refNorm_apply (ei : Vec Ideal S2x600000 .i32) (e : Fin 600000) :
    refNorm (F := Ideal) ei (ix1 e)
      = refDinv (F := Ideal) ei (ix1 (csrc ei e)) * refDinv (F := Ideal) ei (ix1 (cdst ei e)) := by
  unfold refNorm
  rw [mulf_apply, gather1_apply (N := 50000) (by decide) _ rfl rfl rfl rfl,
    gather1_apply (N := 50000) (by decide) _ rfl rfl rfl rfl, refWrap_apply, refWrap_apply]
  rfl

theorem refAgg_apply (hW : FVec Ideal S50000x128 .f32) (b : FVec Ideal S128 .f32) (ei : Vec Ideal S2x600000 .i32)
    (i : Fin 50000) (f : Fin 128) :
    refAgg (F := Ideal) hW b ei (ix2 i f)
      = ((zeroW + ∑ e ∈ lands ei i, hW (ix2 (csrc ei e) f)
              * (refDinv (F := Ideal) ei (ix1 (csrc ei e)) * refDinv (F := Ideal) ei (ix1 (cdst ei e))))
          + hW (ix2 i f) * (refDinv (F := Ideal) ei (ix1 i) * refDinv (F := Ideal) ei (ix1 i)))
        + b (ix1 f) := by
  unfold refAgg
  rw [addf_apply, addf_apply, scatterAdd2_apply _ rfl rfl rfl rfl, mulf_apply, spreadN_apply, bcast_col_apply,
    mulf_apply, spreadRow_apply, asRow_apply]
  refine congrArg₂ (· + ·) (congrArg₂ (· + ·) (congrArg₂ (· + ·) rfl ?_) rfl) rfl
  refine Finset.sum_congr (Finset.filter_congr fun e _ => by rw [bcast_col_apply]; rfl) fun e _ => ?_
  rw [mulf_apply, gather2_apply (N := 50000) (by decide) _ rfl rfl rfl rfl rfl, refWrap_apply, spreadE_apply,
    bcast_col_apply, refNorm_apply]
  rfl

theorem dotRef_lhs0 (j : Cert.ReferenceIdeal.S50000x128.Idx) (q : (DotDims.contr dotRef).Idx) :
    (DotDims.lhsIdx dotRef j q 0).val = (j 0).val := by
  unfold DotDims.lhsIdx
  rw [dif_neg (show ¬(0 : Fin Cert.ReferenceIdeal.S50000x128.rank) ∈ DotDims.lhsBatch dotRef by decide),
    dif_pos (show (0 : Fin Cert.ReferenceIdeal.S50000x128.rank) ∈ DotDims.lhsNonContracting dotRef by decide)]
  rfl

theorem dotRef_rhs1 (j : Cert.ReferenceIdeal.S50000x128.Idx) (q : (DotDims.contr dotRef).Idx) :
    (DotDims.rhsIdx dotRef j q 1).val = (j 1).val := by
  unfold DotDims.rhsIdx
  rw [dif_neg (show ¬(1 : Fin Cert.ReferenceIdeal.S128x128.rank) ∈ DotDims.rhsBatch dotRef by decide),
    dif_pos (show (1 : Fin Cert.ReferenceIdeal.S128x128.rank) ∈ DotDims.rhsNonContracting dotRef by decide)]
  rfl

theorem refDot_apply (H : FVec Ideal S50000x128 .f32) (W : FVec Ideal S128x128 .f32) (i : Fin 50000) (f : Fin 128) :
    Host.dotGeneral dotRef none H W (ix2 i f) = ∑ k : Fin 128, H (ix2 i k) * W (ix2 k f) := by
  simp only [Host.dotGeneral]
  rw [Ideal.dotGeneral_apply, ← Equiv.sum_comp (contrEquiv1 dotRef 128 rfl rfl).symm]
  refine Finset.sum_congr rfl fun k _ => ?_
  have hk := contrEquiv1_symm_val dotRef 128 rfl rfl k
  have el : DotDims.lhsIdx dotRef (ix2 i f) ((contrEquiv1 dotRef 128 rfl rfl).symm k) = ix2 i k := funext fun a => Fin.ext (by
    match a with
    | ⟨0, _⟩ => exact dotRef_lhs0 _ _
    | ⟨1, _⟩ => exact (DotDims.lhsIdx_val_of_single dotRef rfl _ _).trans hk)
  have er : DotDims.rhsIdx dotRef (ix2 i f) ((contrEquiv1 dotRef 128 rfl rfl).symm k) = ix2 k f := funext fun a => Fin.ext (by
    match a with
    | ⟨0, _⟩ => exact (DotDims.rhsIdx_val_of_single dotRef rfl _ _).trans hk
    | ⟨1, _⟩ => exact dotRef_rhs1 _ _)
  rw [el, er]

theorem zeroW_eq : zeroW = 0 := Ideal.ofBits_zero_f32

theorem sum_coe {ι : Type} (s : Finset ι) (g : ι → ℝ) : ∑ x ∈ s, ((g x : ℝ) : EReal) = ((∑ x ∈ s, g x : ℝ) : EReal) := by
  classical
  induction s using Finset.induction_on with
  | empty => simp
  | insert a s ha ih => rw [Finset.sum_insert ha, Finset.sum_insert ha, ih, EReal.coe_add]

def linR (Hr : S50000x128.Idx → ℝ) (Wr : S128x128.Idx → ℝ) (j : Fin 50000) (f : Fin 128) : ℝ :=
  ∑ k : Fin 128, Hr (ix2 j k) * Wr (ix2 k f)

def kerR (Hr : S50000x128.Idx → ℝ) (Wr : S128x128.Idx → ℝ) (br : S128.Idx → ℝ) (dr : Fin 50000 → ℝ)
    (ei : Vec Ideal S2x600000 .i32) (i : Fin 50000) (f : Fin 128) : ℝ :=
  dr i * ((∑ e ∈ lands ei i, linR Hr Wr (csrc ei e) f * dr (csrc ei e)) + linR Hr Wr i f * dr i) + br (ix1 f)

def refR (Hr : S50000x128.Idx → ℝ) (Wr : S128x128.Idx → ℝ) (br : S128.Idx → ℝ) (dr : Fin 50000 → ℝ)
    (ei : Vec Ideal S2x600000 .i32) (i : Fin 50000) (f : Fin 128) : ℝ :=
  ((∑ e ∈ lands ei i, linR Hr Wr (csrc ei e) f * (dr (csrc ei e) * dr i)) + linR Hr Wr i f * (dr i * dr i)) + br (ix1 f)

theorem factor_sum {ι : Type} (s : Finset ι) (a d : ι → ℝ) (x y c : ℝ) :
    x * ((∑ e ∈ s, a e * d e) + y * x) + c = ((∑ e ∈ s, a e * (d e * x)) + y * (x * x)) + c := by
  rw [mul_add, Finset.mul_sum]
  refine congrArg₂ (· + ·) (congrArg₂ (· + ·) (Finset.sum_congr rfl fun e _ => by ring) (by ring)) rfl

theorem kerR_eq_refR (Hr : S50000x128.Idx → ℝ) (Wr : S128x128.Idx → ℝ) (br : S128.Idx → ℝ) (dr : Fin 50000 → ℝ)
    (ei : Vec Ideal S2x600000 .i32) (i : Fin 50000) (f : Fin 128) : kerR Hr Wr br dr ei i f = refR Hr Wr br dr ei i f :=
  factor_sum _ _ _ _ _ _

section Conv

variable (H hs : Vec Ideal S50000x128 .f32) (W : Vec Ideal S128x128 .f32) (b : Vec Ideal S128 .f32) (ei : Vec Ideal S2x600000 .i32)
variable (Hr : S50000x128.Idx → ℝ) (Wr : S128x128.Idx → ℝ) (br : S128.Idx → ℝ) (dr : Fin 50000 → ℝ)

theorem lin_coe (hHr : ∀ j, H j = (Hr j : EReal)) (hWr : ∀ j, W j = (Wr j : EReal)) (j : Fin 50000) (f : Fin 128) :
    ∑ k : Fin 128, H (ix2 j k) * W (ix2 k f) = (linR Hr Wr j f : EReal) := by
  unfold linR
  rw [← sum_coe]
  exact Finset.sum_congr rfl fun k _ => by rw [hHr, hWr, EReal.coe_mul]

theorem comb_coe (hHr : ∀ j, H j = (Hr j : EReal)) (hWr : ∀ j, W j = (Wr j : EReal)) (hbr : ∀ j, b j = (br j : EReal))
    (hdr : ∀ j, dinvOf ei (ix1 j) = (dr j : EReal))
    (hhs : ∀ i f, hs (ix2 i f) = linAt H W (shapeCast S50000x1 (dinvOf ei) shapeCasts_S50000_S50000x1) i f)
    (i : Fin 50000) (f : Fin 128) :
    combAt (aggOf hs ei) hs (shapeCast S50000x1 (dinvOf ei) shapeCasts_S50000_S50000x1)
      (shapeCast S1x128 b shapeCasts_S128_S1x128) i f = (kerR Hr Wr br dr ei i f : EReal) := by
  have hterm : ∀ j, hs (ix2 j f) = ((linR Hr Wr j f * dr j : ℝ) : EReal) := fun j => by
    rw [hhs j f]; unfold linAt
    rw [lin_coe H W Hr Wr hHr hWr, dcol_apply, hdr j, EReal.coe_mul]
  unfold combAt
  rw [aggOf_apply, dcol_apply, brow_apply, hdr i, hbr, hterm i,
    Finset.sum_congr rfl (fun e _ => hterm (csrc ei e)), sum_coe]
  unfold kerR
  rw [zeroW_eq, zero_add, ← EReal.coe_add, ← EReal.coe_mul, ← EReal.coe_add]

theorem ref_coe (hHr : ∀ j, H j = (Hr j : EReal)) (hWr : ∀ j, W j = (Wr j : EReal)) (hbr : ∀ j, b j = (br j : EReal))
    (hdr : ∀ j, dinvOf ei (ix1 j) = (dr j : EReal)) (i : Fin 50000) (f : Fin 128) :
    refConv (F := Ideal) H W b ei (ix2 i f) = (refR Hr Wr br dr ei i f : EReal) := by
  unfold refConv
  rw [refAgg_apply, ← dinv_eq ei, hdr i, hbr, refDot_apply, lin_coe H W Hr Wr hHr hWr]
  have hterm : ∀ e ∈ lands ei i,
      Host.dotGeneral (F := Ideal) dotRef none H W (ix2 (csrc ei e) f) * (dinvOf ei (ix1 (csrc ei e)) * dinvOf ei (ix1 (cdst ei e)))
        = ((linR Hr Wr (csrc ei e) f * (dr (csrc ei e) * dr i) : ℝ) : EReal) := fun e he => by
    rw [cdst_of_lands he, refDot_apply, lin_coe H W Hr Wr hHr hWr, hdr, hdr, ← EReal.coe_mul, ← EReal.coe_mul]
  rw [Finset.sum_congr rfl hterm, sum_coe]
  unfold refR
  rw [zeroW_eq, zero_add, ← EReal.coe_mul, ← EReal.coe_mul, ← EReal.coe_add, ← EReal.coe_add]

end Conv

end Conv23

open Conv23

theorem bridgeConv (H hs : Vec Ideal S50000x128 .f32) (W : Vec Ideal S128x128 .f32) (b : Vec Ideal S128 .f32)
    (ei : Vec Ideal S2x600000 .i32) (hH : ∀ j, ∃ r : ℝ, H j = (r : EReal)) (hW : ∀ j, ∃ r : ℝ, W j = (r : EReal))
    (hb : ∀ j, ∃ r : ℝ, b j = (r : EReal))
    (hhs : ∀ i f, hs (ix2 i f) = linAt H W (shapeCast S50000x1 (dinvOf ei) shapeCasts_S50000_S50000x1) i f)
    (i : Fin 50000) (f : Fin 128) :
    combAt (aggOf hs ei) hs (shapeCast S50000x1 (dinvOf ei) shapeCasts_S50000_S50000x1)
      (shapeCast S1x128 b shapeCasts_S128_S1x128) i f
      = Cert.ReferenceIdeal.Hand.refConv (F := Ideal) H W b ei (ix2 i f) := by
  choose Hr hHr using hH
  choose Wr hWr using hW
  choose br hbr using hb
  choose dr _ hdr using dinv_real ei
  rw [comb_coe H hs W b ei Hr Wr br dr hHr hWr hbr hdr hhs, ref_coe H W b ei Hr Wr br dr hHr hWr hbr hdr,
    kerR_eq_refR]

theorem finConv (H hs : Vec Ideal S50000x128 .f32) (W : Vec Ideal S128x128 .f32) (b : Vec Ideal S128 .f32)
    (ei : Vec Ideal S2x600000 .i32) (hH : ∀ j, ∃ r : ℝ, H j = (r : EReal)) (hW : ∀ j, ∃ r : ℝ, W j = (r : EReal))
    (hb : ∀ j, ∃ r : ℝ, b j = (r : EReal))
    (hhs : ∀ i f, hs (ix2 i f) = linAt H W (shapeCast S50000x1 (dinvOf ei) shapeCasts_S50000_S50000x1) i f)
    (i : Fin 50000) (f : Fin 128) :
    ∃ r : ℝ, combAt (aggOf hs ei) hs (shapeCast S50000x1 (dinvOf ei) shapeCasts_S50000_S50000x1)
      (shapeCast S1x128 b shapeCasts_S128_S1x128) i f = (r : EReal) := by
  choose Hr hHr using hH
  choose Wr hWr using hW
  choose br hbr using hb
  choose dr _ hdr using dinv_real ei
  exact ⟨_, comb_coe H hs W b ei Hr Wr br dr hHr hWr hbr hdr hhs i f⟩

theorem relu_apply (h : Vec Ideal S50000x128 .f32) (i : Fin 50000) (f : Fin 128) :
    Cert.ReferenceIdeal.Hand.refRelu (F := Ideal) h (ix2 i f) = max (h (ix2 i f)) zeroW := rfl

theorem fin_max (a : EReal) (h : ∃ r : ℝ, a = (r : EReal)) : ∃ r : ℝ, max a zeroW = (r : EReal) := by
  obtain ⟨r, rfl⟩ := h
  refine ⟨max r 0, ?_⟩
  rw [zeroW_eq, ← EReal.coe_zero]
  rcases le_total r 0 with h | h
  · rw [max_eq_right h, max_eq_right (EReal.coe_le_coe_iff.mpr h)]
  · rw [max_eq_left h, max_eq_left (EReal.coe_le_coe_iff.mpr h)]

end Cert.KernelIdeal.Hand

end
-- ==== Proof.KIBridgePool.lean ====
import proofs.«405176_j18674517803330_2_alg».proof.Proof.KISpec
import proofs.«405176_j18674517803330_2_alg».proof.Proof.KIHost
import proofs.«405176_j18674517803330_2_alg».proof.Proof.KIRef
import proofs.«405176_j18674517803330_2_alg».proof.Proof.LibGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Mathlib.Algebra.BigOperators.Group.Finset.Basic
import Mathlib.Data.Finset.Filter

set_option maxRecDepth 16384

noncomputable section

namespace Cert.KernelIdeal.Hand

open Cert.KernelIdeal Cert.KernelIdeal.Gen
open Idealize.ShloMosaic Idealize.ShloMosaic.ValueIdx
open Cert.LibGatherScatter

abbrev oneW : EReal := Ideal.ofBits .f32 0x3F800000#32

theorem word_eq_ofNat_iff (b : BitVec 32) (g : Nat) (hg : g < 2 ^ 31) : b = BitVec.ofNat 32 g ↔ b.toInt = (g : ℤ) := by
  constructor
  · rintro rfl; exact StableHlo.Predicate.toInt_ofNat_small g hg
  · intro h; exact BitVec.eq_of_toInt_eq (h.trans (StableHlo.Predicate.toInt_ofNat_small g hg).symm)

theorem memberW_eq (b : BitVec 32) (g : Fin 512) : memberW b g = if b.toInt = (g.val : ℤ) then 1 else 0 := by
  unfold memberW
  exact if_congr (word_eq_ofNat_iff b g.val (by have := g.isLt; omega)) rfl rfl

abbrev membersOf (bt : Vec Ideal S50000 .i32) (g : Nat) : Finset (Fin 50000) :=
  Finset.univ.filter (fun n : Fin 50000 => (bt (ix1 n)).toInt = (g : ℤ))

theorem pooled_sum_eq (h : Vec Ideal S50000x128 .f32) (bt : Vec Ideal S50000 .i32) (g : Fin 512) (k : Fin 128) :
    ∑ n : Fin 50000, memberW (bt (ix1 n)) g * h (ix2 n k) = ∑ n ∈ membersOf bt g.val, h (ix2 n k) := by
  rw [Finset.sum_filter]
  refine Finset.sum_congr rfl fun n _ => ?_
  rw [memberW_eq]
  split
  · exact one_mul _
  · exact zero_mul _

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

def cntOf (bt : Vec Ideal S50000 .i32) (g : Nat) : EReal := max (zeroW + ∑ n ∈ membersOf bt g, oneW) oneW

theorem cntPadOf_apply (bt : Vec Ideal S50000 .i32) (hbt : ∀ j, 0 ≤ (bt j).toInt) (g : Fin 500) (hg : g.val < 512) :
    cntPadOf bt (ix2 (⟨g.val, hg⟩ : Fin 512) 0) = cntOf bt g.val := by
  unfold cntPadOf
  refine (shapeCast_a_a1_apply _ shapeCasts_S512_S512x1 (⟨g.val, hg⟩ : Fin 512) 0).trans ?_
  refine (concatenate_pair_apply_left (0 : Fin S512.rank) _ _ concatenates_S500_S12_S512_d0 (ix1 (⟨g.val, hg⟩ : Fin 512)) rfl (ix1 g)
    (fun b => match b with | ⟨0, _⟩ => rfl)).trans ?_
  unfold cntOf
  rw [maximumf_apply]
  refine congrArg₂ max ?_ rfl
  refine (scatterAdd1_apply _ rfl rfl rfl rfl _ _ _ g).trans ?_
  refine congrArg₂ (· + ·) rfl ?_
  have hw : ∀ e : Fin 50000, broadcastInDim S50000x1 ![0] bcast_S50000_S50000x1_0 (wrapG bt) (ix2 e 0) = bt (ix1 e) := fun e => by
    refine (bcast_col_apply _ _ e 0).trans ?_
    unfold wrapG
    refine (wrap_apply _ _ _ _ _).trans ?_
    exact wrapW_of_nonneg (hbt _)
  exact Finset.sum_congr (Finset.filter_congr fun e _ => by rw [hw e]) (fun e _ => rfl)

theorem refCounts_apply (bt : Vec Ideal S50000 .i32) (g : Fin 500) :
    Cert.ReferenceIdeal.Hand.refCounts (F := Ideal) bt (ix1 g) = cntOf bt g.val := by
  unfold Cert.ReferenceIdeal.Hand.refCounts cntOf
  rw [maximumf_apply]
  refine congrArg₂ max ?_ rfl
  refine (scatterAdd1_apply _ rfl rfl rfl rfl _ _ _ g).trans ?_
  refine congrArg₂ (· + ·) rfl ?_
  exact Finset.sum_congr (Finset.filter_congr fun e _ => by rw [bcast_col_apply]) (fun e _ => rfl)

theorem poolDot_lhs0 (i : Cert.ReferenceIdeal.S500x2.Idx) (q : Cert.ReferenceIdeal.dot_S500x128_S128x2_S500x2_1_0_0_1_n_n.contr.Idx) :
    (Cert.ReferenceIdeal.dot_S500x128_S128x2_S500x2_1_0_0_1_n_n.lhsIdx i q 0).val = (i 0).val := by
  unfold DotDims.lhsIdx
  rw [dif_neg (show ¬(0 : Fin Cert.ReferenceIdeal.S500x128.rank) ∈ Cert.ReferenceIdeal.dot_S500x128_S128x2_S500x2_1_0_0_1_n_n.lhsBatch by decide),
    dif_pos (show (0 : Fin Cert.ReferenceIdeal.S500x128.rank) ∈ Cert.ReferenceIdeal.dot_S500x128_S128x2_S500x2_1_0_0_1_n_n.lhsNonContracting by decide)]
  rfl
theorem poolDot_lhs1 (i : Cert.ReferenceIdeal.S500x2.Idx) (q : Cert.ReferenceIdeal.dot_S500x128_S128x2_S500x2_1_0_0_1_n_n.contr.Idx) :
    (Cert.ReferenceIdeal.dot_S500x128_S128x2_S500x2_1_0_0_1_n_n.lhsIdx i q 1).val = (q ⟨0, by decide⟩).val :=
  Cert.ReferenceIdeal.dot_S500x128_S128x2_S500x2_1_0_0_1_n_n.lhsIdx_val_of_single rfl i q
theorem poolDot_rhs0 (i : Cert.ReferenceIdeal.S500x2.Idx) (q : Cert.ReferenceIdeal.dot_S500x128_S128x2_S500x2_1_0_0_1_n_n.contr.Idx) :
    (Cert.ReferenceIdeal.dot_S500x128_S128x2_S500x2_1_0_0_1_n_n.rhsIdx i q 0).val = (q ⟨0, by decide⟩).val :=
  Cert.ReferenceIdeal.dot_S500x128_S128x2_S500x2_1_0_0_1_n_n.rhsIdx_val_of_single rfl i q
theorem poolDot_rhs1 (i : Cert.ReferenceIdeal.S500x2.Idx) (q : Cert.ReferenceIdeal.dot_S500x128_S128x2_S500x2_1_0_0_1_n_n.contr.Idx) :
    (Cert.ReferenceIdeal.dot_S500x128_S128x2_S500x2_1_0_0_1_n_n.rhsIdx i q 1).val = (i 1).val := by
  unfold DotDims.rhsIdx
  rw [dif_neg (show ¬(1 : Fin Cert.ReferenceIdeal.S128x2.rank) ∈ Cert.ReferenceIdeal.dot_S500x128_S128x2_S500x2_1_0_0_1_n_n.rhsBatch by decide),
    dif_pos (show (1 : Fin Cert.ReferenceIdeal.S128x2.rank) ∈ Cert.ReferenceIdeal.dot_S500x128_S128x2_S500x2_1_0_0_1_n_n.rhsNonContracting by decide)]
  rfl

theorem pool_dot_apply (Y : Vec Ideal Cert.ReferenceIdeal.S500x128 .f32) (W : Vec Ideal Cert.ReferenceIdeal.S128x2 .f32) (g : Fin 500) (o : Fin 2) :
    Host.dotGeneral (F := Ideal) (φ₁ := .f32) (φ₂ := .f32) Cert.ReferenceIdeal.dot_S500x128_S128x2_S500x2_1_0_0_1_n_n none Y W (ix2 g o)
      = ∑ k : Fin 128, Y (ix2 g k) * W (ix2 k o) := by
  simp only [Host.dotGeneral]
  rw [Ideal.dotGeneral_apply,
    ← Equiv.sum_comp (contrEquiv1 Cert.ReferenceIdeal.dot_S500x128_S128x2_S500x2_1_0_0_1_n_n 128 rfl rfl).symm]
  refine Finset.sum_congr rfl fun k _ => ?_
  have hk := contrEquiv1_symm_val Cert.ReferenceIdeal.dot_S500x128_S128x2_S500x2_1_0_0_1_n_n 128 rfl rfl k
  have el : Cert.ReferenceIdeal.dot_S500x128_S128x2_S500x2_1_0_0_1_n_n.lhsIdx (ix2 g o)
      ((contrEquiv1 Cert.ReferenceIdeal.dot_S500x128_S128x2_S500x2_1_0_0_1_n_n 128 rfl rfl).symm k) = ix2 g k :=
    funext fun a => Fin.ext (by
      match a with
      | ⟨0, _⟩ => exact poolDot_lhs0 _ _
      | ⟨1, _⟩ => exact (poolDot_lhs1 _ _).trans hk)
  have er : Cert.ReferenceIdeal.dot_S500x128_S128x2_S500x2_1_0_0_1_n_n.rhsIdx (ix2 g o)
      ((contrEquiv1 Cert.ReferenceIdeal.dot_S500x128_S128x2_S500x2_1_0_0_1_n_n 128 rfl rfl).symm k) = ix2 k o :=
    funext fun a => Fin.ext (by
      match a with
      | ⟨0, _⟩ => exact (poolDot_rhs0 _ _).trans hk
      | ⟨1, _⟩ => exact poolDot_rhs1 _ _)
  rw [el, er]

theorem hostDivf_apply {s : Shape} (a b : FVec Ideal s .f32) (i : s.Idx) : Host.divf a b i = Ideal.div (a i) (b i) := rfl

theorem refPool_apply (h : Vec Ideal S50000x128 .f32) (bt : Vec Ideal S50000 .i32) (Wl : Vec Ideal S128x2 .f32) (bl : Vec Ideal S2 .f32)
    (g : Fin 500) (o : Fin 2) :
    Cert.ReferenceIdeal.Hand.refPool (F := Ideal) h bt Wl bl (ix2 g o)
      = (∑ k : Fin 128, Ideal.div (∑ n ∈ membersOf bt g.val, h (ix2 n k)) (cntOf bt g.val) * Wl (ix2 k o)) + bl (ix1 o) := by
  unfold Cert.ReferenceIdeal.Hand.refPool
  rw [addf_apply]
  refine congrArg₂ (· + ·) ?_ ?_
  · refine (pool_dot_apply _ Wl g o).trans ?_
    refine Finset.sum_congr rfl fun k _ => ?_
    refine congrArg (· * Wl (ix2 k o)) ?_
    refine (hostDivf_apply _ _ _).trans ?_
    refine congrArg₂ Ideal.div ?_ ?_
    · refine (scatterAdd2_apply _ rfl rfl rfl rfl _ _ _ g k).trans ?_
      refine (congrArg₂ (· + ·) (Ideal.ofBits_zero_f32 : _ = (0 : EReal)) ?_).trans (zero_add _)
      exact Finset.sum_congr (Finset.filter_congr fun e _ => by rw [bcast_col_apply]) (fun e _ => rfl)
    · refine (broadcastInDim_apply _ _ _ (ix2 g k) (ix2 g (0 : Fin 1)) (fun a => match a with
        | ⟨0, _⟩ => by show g.val = if (500 : ℕ) = 1 then 0 else g.val; rw [if_neg (by decide)]
        | ⟨1, _⟩ => by show (0 : ℕ) = if (1 : ℕ) = 1 then 0 else k.val; rw [if_pos rfl])).trans ?_
      refine (broadcastInDim_apply _ _ _ (ix2 g (0 : Fin 1)) (ix1 g) (fun a => match a with
        | ⟨0, _⟩ => by show g.val = if (500 : ℕ) = 1 then 0 else g.val; rw [if_neg (by decide)])).trans ?_
      exact refCounts_apply bt g
  · refine (broadcastInDim_apply _ _ _ (ix2 g o) (ix2 (0 : Fin 1) o) (fun a => match a with
      | ⟨0, _⟩ => by show (0 : ℕ) = if (1 : ℕ) = 1 then 0 else g.val; rw [if_pos rfl]
      | ⟨1, _⟩ => by show o.val = if (2 : ℕ) = 1 then 0 else o.val; rw [if_neg (by decide)])).trans ?_
    exact broadcastInDim_apply _ _ bl (ix2 (0 : Fin 1) o) (ix1 o) (fun a => match a with
      | ⟨0, _⟩ => by show o.val = if (2 : ℕ) = 1 then 0 else o.val; rw [if_neg (by decide)])

theorem poolAt_apply (h : Vec Ideal S50000x128 .f32) (bt : Vec Ideal S50000 .i32) (Wl : Vec Ideal S128x2 .f32) (bl : Vec Ideal S2 .f32)
    (hbt : ∀ j, 0 ≤ (bt j).toInt) (g : Fin 500) (o : Fin 2) (hg : g.val < 512) :
    poolAt h (shapeCast S50000x1 bt shapeCasts_S50000_S50000x1) (cntPadOf bt) Wl (shapeCast S1x2 bl shapeCasts_S2_S1x2) ⟨g.val, hg⟩ o
      = (∑ k : Fin 128, Ideal.div (∑ n ∈ membersOf bt g.val, h (ix2 n k)) (cntOf bt g.val) * Wl (ix2 k o)) + bl (ix1 o) := by
  unfold poolAt
  refine congrArg₂ (· + ·) ?_ (shapeCast_a_1a_apply bl _ 0 o)
  refine Finset.sum_congr rfl fun k _ => ?_
  refine congrArg (· * Wl (ix2 k o)) ?_
  refine congrArg₂ Ideal.div ?_ (cntPadOf_apply bt hbt g hg)
  refine (Finset.sum_congr rfl fun n _ => ?_).trans (pooled_sum_eq h bt ⟨g.val, hg⟩ k)
  rw [shapeCast_a_a1_apply]

theorem bridgePool (h : Vec Ideal S50000x128 .f32) (bt : Vec Ideal S50000 .i32) (Wl : Vec Ideal S128x2 .f32) (bl : Vec Ideal S2 .f32)
    (hbt : ∀ j, 0 ≤ (bt j).toInt) (g : Fin 500) (o : Fin 2) :
    poolAt h (shapeCast S50000x1 bt shapeCasts_S50000_S50000x1) (cntPadOf bt) Wl (shapeCast S1x2 bl shapeCasts_S2_S1x2) ⟨g.val, by omega⟩ o
      = Cert.ReferenceIdeal.Hand.refPool (F := Ideal) h bt Wl bl (ix2 g o) :=
  (poolAt_apply h bt Wl bl hbt g o _).trans (refPool_apply h bt Wl bl g o).symm

end Cert.KernelIdeal.Hand

end
-- ==== Proof.KIFinal.lean ====
import proofs.«405176_j18674517803330_2_alg».proof.Proof.KIDefs
import proofs.«405176_j18674517803330_2_alg».proof.Proof.KISpec
import proofs.«405176_j18674517803330_2_alg».proof.Proof.KIHost
import proofs.«405176_j18674517803330_2_alg».proof.Proof.KIRef
import proofs.«405176_j18674517803330_2_alg».proof.Proof.KIVal024
import proofs.«405176_j18674517803330_2_alg».proof.Proof.KIVal13
import proofs.«405176_j18674517803330_2_alg».proof.Proof.KIVal5
import proofs.«405176_j18674517803330_2_alg».proof.Proof.KISlice
import proofs.«405176_j18674517803330_2_alg».proof.Proof.KIPre
import proofs.«405176_j18674517803330_2_alg».proof.Proof.KIBridge1
import proofs.«405176_j18674517803330_2_alg».proof.Proof.KIBridge23
import proofs.«405176_j18674517803330_2_alg».proof.Proof.KIBridgePool
import proofs.«405176_j18674517803330_2_alg».proof.Proof.KIRun
import proofs.«405176_j18674517803330_2_alg».proof.Proof.KIThru
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal.Hand (refConv1 refConv refRelu refPool refOut)

section Chain

variable (m : (ℓ : Loc nD τ sig) → Buf (Elt Ideal) ℓ) (c : Dev nD)

abbrev eiOf : Vec Ideal S2x600000 .i32 := m ((c.tc : Thread nD τ).loc main_arg9)

def ref1 : Vec Ideal S50000x128 .f32 :=
  refRelu (F := Ideal) (refConv1 (F := Ideal) (m ((c.tc : Thread nD τ).loc main_arg0)) (m ((c.tc : Thread nD τ).loc main_arg1))
    (m ((c.tc : Thread nD τ).loc main_arg2)) (m ((c.tc : Thread nD τ).loc main_arg9)))

def ref2 : Vec Ideal S50000x128 .f32 :=
  refRelu (F := Ideal) (refConv (F := Ideal) (ref1 m c) (m ((c.tc : Thread nD τ).loc main_arg3))
    (m ((c.tc : Thread nD τ).loc main_arg4)) (m ((c.tc : Thread nD τ).loc main_arg9)))

def ref3 : Vec Ideal S50000x128 .f32 :=
  refConv (F := Ideal) (ref2 m c) (m ((c.tc : Thread nD τ).loc main_arg5))
    (m ((c.tc : Thread nD τ).loc main_arg6)) (m ((c.tc : Thread nD τ).loc main_arg9))

abbrev dcolOf : Vec Ideal S50000x1 .f32 := shapeCast S50000x1 (dinvOf (eiOf m c)) shapeCasts_S50000_S50000x1

theorem w1_v16 : W1 m c main_v16 = dcolOf m c := host0_v16 (W0 m c)
theorem w1_v1 : W1 m c main_v1 = srcOf (eiOf m c) := host0_v1 (W0 m c)
theorem w1_v3 : W1 m c main_v3 = dstOf (eiOf m c) := host0_v3 (W0 m c)
theorem w1_v31 : W1 m c main_v31
    = shapeCast S50000x1 (tOf (m ((c.tc : Thread nD τ).loc main_arg0)) (eiOf m c)) shapeCasts_S50000_S50000x1 := host0_v31 (W0 m c)
theorem w1_v32 : W1 m c main_v32 = shapeCast S1x128 (m ((c.tc : Thread nD τ).loc main_arg2)) shapeCasts_S128_S1x128 :=
  host0_v32 (W0 m c)

theorem w4_v44 : W4 m c main_v44 = aggOf (o34 m c) (eiOf m c) := by
  rw [show W4 m c main_v44 = aggSD (W3 m c main_v34) (W3 m c main_v1) (W3 m c main_v3) from host2_v44 (W3 m c),
    thru_3_v34, from1_3 m c main_v1, from1_3 m c main_v3, w1_v1, w1_v3]
  rfl
theorem w4_v45 : W4 m c main_v45 = shapeCast S1x128 (m ((c.tc : Thread nD τ).loc main_arg4)) shapeCasts_S128_S1x128 := by
  rw [show W4 m c main_v45 = shapeCast S1x128 (W3 m c main_arg4) shapeCasts_S128_S1x128 from host2_v45 (W3 m c), arg_3 m c main_arg4]
theorem w7_v57 : W7 m c main_v57 = aggOf (o47 m c) (eiOf m c) := by
  rw [show W7 m c main_v57 = aggSD (W6 m c main_v47) (W6 m c main_v1) (W6 m c main_v3) from host4_v57 (W6 m c),
    thru_6_v47, from1_6 m c main_v1, from1_6 m c main_v3, w1_v1, w1_v3]
  rfl
theorem w7_v58 : W7 m c main_v58 = shapeCast S1x128 (m ((c.tc : Thread nD τ).loc main_arg6)) shapeCasts_S128_S1x128 := by
  rw [show W7 m c main_v58 = shapeCast S1x128 (W6 m c main_arg6) shapeCasts_S128_S1x128 from host4_v58 (W6 m c), arg_6 m c main_arg6]
theorem w9_v73 : W9 m c main_v73 = cntPadOf (m ((c.tc : Thread nD τ).loc main_arg10)) := by
  rw [show W9 m c main_v73 = cntPadOf (W8 m c main_arg10) from host5_v73 (W8 m c), arg_8 m c main_arg10]
theorem w9_v74 : W9 m c main_v74 = shapeCast S50000x1 (m ((c.tc : Thread nD τ).loc main_arg10)) shapeCasts_S50000_S50000x1 := by
  rw [show W9 m c main_v74 = shapeCast S50000x1 (W8 m c main_arg10) shapeCasts_S50000_S50000x1 from host5_v74 (W8 m c), arg_8 m c main_arg10]
theorem w9_v75 : W9 m c main_v75 = shapeCast S1x2 (m ((c.tc : Thread nD τ).loc main_arg8)) shapeCasts_S2_S1x2 := by
  rw [show W9 m c main_v75 = shapeCast S1x2 (W8 m c main_arg8) shapeCasts_S2_S1x2 from host5_v75 (W8 m c), arg_8 m c main_arg8]
theorem w11_v77 : W11 m c main_v77 = extractStridedSlice S500x2 ![0, 0] (o76 m c) slices_S512x2_S500x2_0_0 := by
  rw [show W11 m c main_v77 = extractStridedSlice S500x2 ![0, 0] (W10 m c main_v76) slices_S512x2_S500x2_0_0 from host6_v77 (W10 m c),
    thru_10_v76]

theorem refOut_unfold :
    refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
      = refPool (F := Ideal) (ref3 m c) (m ((c.tc : Thread nD τ).loc main_arg10)) (m ((c.tc : Thread nD τ).loc main_arg7))
          (m ((c.tc : Thread nD τ).loc main_arg8)) := rfl

variable (hpre : Cert.Pre_finite_inputs.fn (F := Ideal) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))
  = (fun _ => 1#1))
include hpre

theorem o33_apply (i : Fin 50000) (f : Fin 128) : (o33 m c : Vec Ideal S50000x128 .f32) (ix2 i f) = ref1 m c (ix2 i f) :=
  (final0 (Vr (W1 m)) c i f).trans (by
    show comb1At (W1 m c main_v31) (W1 m c main_arg1) (W1 m c main_v32) i f = _
    rw [w1_v31, arg_1 m c main_arg1, w1_v32]
    exact bridge1 _ _ _ _ (fin_0 _ _ _ _ _ _ _ _ _ _ _ hpre) (fin_1 _ _ _ _ _ _ _ _ _ _ _ hpre) (fin_2 _ _ _ _ _ _ _ _ _ _ _ hpre) i f)

theorem o33_eq : (o33 m c : Vec Ideal S50000x128 .f32) = ref1 m c := funext fun (j : S50000x128.Idx) =>
  (congrArg (o33 m c : Vec Ideal S50000x128 .f32) (eq_ix2 j)).trans
    ((o33_apply m c hpre (j 0) (j 1)).trans (congrArg (ref1 m c) (eq_ix2 j)).symm)

theorem ref1_fin (j : S50000x128.Idx) : ∃ r : ℝ, ref1 m c j = (r : EReal) := by
  obtain ⟨r, hr⟩ := fin1 _ _ _ (eiOf m c) (fin_0 _ _ _ _ _ _ _ _ _ _ _ hpre) (fin_1 _ _ _ _ _ _ _ _ _ _ _ hpre)
    (fin_2 _ _ _ _ _ _ _ _ _ _ _ hpre) (j 0) (j 1)
  refine ⟨r, (congrArg (ref1 m c) (eq_ix2 j)).trans ?_⟩
  exact (bridge1 _ _ _ _ (fin_0 _ _ _ _ _ _ _ _ _ _ _ hpre) (fin_1 _ _ _ _ _ _ _ _ _ _ _ hpre)
    (fin_2 _ _ _ _ _ _ _ _ _ _ _ hpre) (j 0) (j 1)).symm.trans hr

theorem o34_apply (i : Fin 50000) (f : Fin 128) :
    (o34 m c : Vec Ideal S50000x128 .f32) (ix2 i f)
      = linAt (ref1 m c) (m ((c.tc : Thread nD τ).loc main_arg3)) (dcolOf m c) i f :=
  (final1 (Vr (W2 m)) c i f).trans (by
    show linAt (W2 m c main_v33) (W2 m c main_arg3) (W2 m c main_v16) i f = _
    rw [thru_2_v33, arg_2 m c main_arg3, from1_2 m c main_v16, w1_v16, o33_eq m c hpre])

theorem o46_apply (i : Fin 50000) (f : Fin 128) : (o46 m c : Vec Ideal S50000x128 .f32) (ix2 i f) = ref2 m c (ix2 i f) :=
  (final2 (Vr (W4 m)) c i f).trans (by
    show max (combAt (W4 m c main_v44) (W4 m c main_v34) (W4 m c main_v16) (W4 m c main_v45) i f) zeroW = _
    rw [w4_v44, thru_4_v34, from1_4 m c main_v16, w1_v16, w4_v45]
    exact (congrArg (max · zeroW) (bridgeConv (ref1 m c) (o34 m c) _ _ (eiOf m c) (ref1_fin m c hpre)
      (fin_3 _ _ _ _ _ _ _ _ _ _ _ hpre) (fin_4 _ _ _ _ _ _ _ _ _ _ _ hpre) (o34_apply m c hpre) i f)).trans
      (relu_apply _ i f).symm)

theorem o46_eq : (o46 m c : Vec Ideal S50000x128 .f32) = ref2 m c := funext fun (j : S50000x128.Idx) =>
  (congrArg (o46 m c : Vec Ideal S50000x128 .f32) (eq_ix2 j)).trans
    ((o46_apply m c hpre (j 0) (j 1)).trans (congrArg (ref2 m c) (eq_ix2 j)).symm)

theorem ref2_fin (j : S50000x128.Idx) : ∃ r : ℝ, ref2 m c j = (r : EReal) := by
  obtain ⟨r, hr⟩ := fin_max _ (finConv (ref1 m c) (o34 m c) _ _ (eiOf m c) (ref1_fin m c hpre)
    (fin_3 _ _ _ _ _ _ _ _ _ _ _ hpre) (fin_4 _ _ _ _ _ _ _ _ _ _ _ hpre) (o34_apply m c hpre) (j 0) (j 1))
  refine ⟨r, (congrArg (ref2 m c) (eq_ix2 j)).trans ?_⟩
  refine ((relu_apply _ (j 0) (j 1)).trans ?_).trans hr
  exact congrArg (max · zeroW) (bridgeConv (ref1 m c) (o34 m c) _ _ (eiOf m c) (ref1_fin m c hpre)
    (fin_3 _ _ _ _ _ _ _ _ _ _ _ hpre) (fin_4 _ _ _ _ _ _ _ _ _ _ _ hpre) (o34_apply m c hpre) (j 0) (j 1)).symm

theorem o47_apply (i : Fin 50000) (f : Fin 128) :
    (o47 m c : Vec Ideal S50000x128 .f32) (ix2 i f)
      = linAt (ref2 m c) (m ((c.tc : Thread nD τ).loc main_arg5)) (dcolOf m c) i f :=
  (final3 (Vr (W5 m)) c i f).trans (by
    show linAt (W5 m c main_v46) (W5 m c main_arg5) (W5 m c main_v16) i f = _
    rw [thru_5_v46, arg_5 m c main_arg5, from1_5 m c main_v16, w1_v16, o46_eq m c hpre])

theorem o59_apply (i : Fin 50000) (f : Fin 128) : (o59 m c : Vec Ideal S50000x128 .f32) (ix2 i f) = ref3 m c (ix2 i f) :=
  (final4 (Vr (W7 m)) c i f).trans (by
    show combAt (W7 m c main_v57) (W7 m c main_v47) (W7 m c main_v16) (W7 m c main_v58) i f = _
    rw [w7_v57, thru_7_v47, from1_7 m c main_v16, w1_v16, w7_v58]
    exact bridgeConv (ref2 m c) (o47 m c) _ _ (eiOf m c) (ref2_fin m c hpre)
      (fin_5 _ _ _ _ _ _ _ _ _ _ _ hpre) (fin_6 _ _ _ _ _ _ _ _ _ _ _ hpre) (o47_apply m c hpre) i f)

theorem o59_eq : (o59 m c : Vec Ideal S50000x128 .f32) = ref3 m c := funext fun (j : S50000x128.Idx) =>
  (congrArg (o59 m c : Vec Ideal S50000x128 .f32) (eq_ix2 j)).trans
    ((o59_apply m c hpre (j 0) (j 1)).trans (congrArg (ref3 m c) (eq_ix2 j)).symm)

theorem o76_apply (g : Fin 500) (o : Fin 2) :
    (o76 m c : Vec Ideal S512x2 .f32) (ix2 (⟨g.val, by omega⟩ : Fin 512) o)
      = refPool (F := Ideal) (ref3 m c) (m ((c.tc : Thread nD τ).loc main_arg10)) (m ((c.tc : Thread nD τ).loc main_arg7))
          (m ((c.tc : Thread nD τ).loc main_arg8)) (ix2 g o) :=
  (final5 (Vr (W9 m)) c ⟨g.val, by omega⟩ o).trans (by
    show poolAt (W9 m c main_v59) (W9 m c main_v74) (W9 m c main_v73) (W9 m c main_arg7) (W9 m c main_v75) ⟨g.val, _⟩ o = _
    rw [thru_9_v59, o59_eq m c hpre, w9_v74, w9_v73, arg_9 m c main_arg7, w9_v75]
    exact bridgePool (ref3 m c) _ _ _ (batch_nonneg _ _ _ _ _ _ _ _ _ _ _ hpre) g o)

theorem kernel_value :
    (W11 m c main_v77 : Vec Ideal S500x2 .f32)
      = refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [w11_v77, refOut_unfold]
  exact funext fun (j : S500x2.Idx) =>
    ((congrArg (extractStridedSlice S500x2 ![0, 0] (o76 m c) slices_S512x2_S500x2_0_0) (eq_ix2 j)).trans
      ((slice500_apply (o76 m c) (j 0) (j 1)).trans (o76_apply m c hpre (j 0) (j 1)))).trans
      (congrArg (refPool (F := Ideal) (ref3 m c) (m ((c.tc : Thread nD τ).loc main_arg10)) (m ((c.tc : Thread nD τ).loc main_arg7))
          (m ((c.tc : Thread nD τ).loc main_arg8))) (eq_ix2 j)).symm

end Chain

end Cert.KernelIdeal.Hand

end
-- ==== Proof.KIRefRun.lean ====
import proofs.«405176_j18674517803330_2_alg».proof.Proof.Gen.ReferenceIdeal
import proofs.«405176_j18674517803330_2_alg».proof.Proof.KIRef
import Idealize.ShloMosaic.Lib.StableHlo.Run
import Idealize.ShloMosaic.Lib.Pipeline.Frame
import Idealize.ShloMosaic.Lib.Pipeline.Regions

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ unary main_arg9 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg9 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg0 main_arg1 main_v4 ((fun l r => Host.dotGeneral dot_S50000x1_S1x128_S50000x128_1_0_0_1_n_n none l r) : (⟨S50000x1, .f32⟩ : BufTy).Contents (Elt F) → (⟨S1x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S600000 ![] bcast_S_S600000 : (⟨S_, .i32⟩ : BufTy).Contents (Elt F) → (⟨S600000, .i32⟩ : BufTy).Contents (Elt F)),
    binary main_v3 main_v6 main_v7 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v8 (broadcastInDim S600000 ![] bcast_S_S600000 : (⟨S_, .i32⟩ : BufTy).Contents (Elt F) → (⟨S600000, .i32⟩ : BufTy).Contents (Elt F)),
    binary main_v3 main_v8 main_v9 (addi : (⟨S600000, .i32⟩ : BufTy).Contents (Elt F) → (⟨S600000, .i32⟩ : BufTy).Contents (Elt F) → (⟨S600000, .i32⟩ : BufTy).Contents (Elt F)),
    ternary main_v7 main_v9 main_v3 main_v10 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v10 main_v11 (broadcastInDim S600000x1 ![0] bcast_S600000_S600000x1_0 : (⟨S600000, .i32⟩ : BufTy).Contents (Elt F) → (⟨S600000x1, .i32⟩ : BufTy).Contents (Elt F)),
    nullary main_cst_1 (constant S_ .f32 0x3F800000#32),
    unary main_cst_1 main_v12 (broadcastInDim S600000 ![] bcast_S_S600000 : (⟨S_, .f32⟩ : BufTy).Contents (Elt F) → (⟨S600000, .f32⟩ : BufTy).Contents (Elt F)),
    ternary main_v5 main_v11 main_v12 main_v13 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_3 (constantI S_ 32 0#32),
    unary main_c_3 main_v17 (broadcastInDim S600000 ![] bcast_S_S600000 : (⟨S_, .i32⟩ : BufTy).Contents (Elt F) → (⟨S600000, .i32⟩ : BufTy).Contents (Elt F)),
    binary main_v1 main_v17 main_v18 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v19 (broadcastInDim S600000 ![] bcast_S_S600000 : (⟨S_, .i32⟩ : BufTy).Contents (Elt F) → (⟨S600000, .i32⟩ : BufTy).Contents (Elt F)),
    binary main_v1 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_v1 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v16 main_v22 main_v23 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v24 (broadcastInDim S600000 ![] bcast_S_S600000 : (⟨S_, .i32⟩ : BufTy).Contents (Elt F) → (⟨S600000, .i32⟩ : BufTy).Contents (Elt F)),
    binary main_v3 main_v24 main_v25 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v26 (broadcastInDim S600000 ![] bcast_S_S600000 : (⟨S_, .i32⟩ : BufTy).Contents (Elt F) → (⟨S600000, .i32⟩ : BufTy).Contents (Elt F)),
    binary main_v3 main_v26 main_v27 (addi : (⟨S600000, .i32⟩ : BufTy).Contents (Elt F) → (⟨S600000, .i32⟩ : BufTy).Contents (Elt F) → (⟨S600000, .i32⟩ : BufTy).Contents (Elt F)),
    ternary main_v25 main_v27 main_v3 main_v28 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v28 main_v29 (broadcastInDim S600000x1 ![0] bcast_S600000_S600000x1_0 : (⟨S600000, .i32⟩ : BufTy).Contents (Elt F) → (⟨S600000x1, .i32⟩ : BufTy).Contents (Elt F)),
    binary main_v16 main_v29 main_v30 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v23 main_v30 main_v31 (mulf : (⟨S600000, .f32⟩ : BufTy).Contents (Elt F) → (⟨S600000, .f32⟩ : BufTy).Contents (Elt F) → (⟨S600000, .f32⟩ : BufTy).Contents (Elt F)),
    nullary main_c_7 (constantI S_ 32 0#32),
    unary main_c_7 main_v32 (broadcastInDim S600000 ![] bcast_S_S600000 : (⟨S_, .i32⟩ : BufTy).Contents (Elt F) → (⟨S600000, .i32⟩ : BufTy).Contents (Elt F)),
    binary main_v1 main_v32 main_v33 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v34 (broadcastInDim S600000 ![] bcast_S_S600000 : (⟨S_, .i32⟩ : BufTy).Contents (Elt F) → (⟨S600000, .i32⟩ : BufTy).Contents (Elt F)),
    binary main_v1 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v1 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v4 main_v37 main_v38 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v31 main_v39 (broadcastInDim S600000x1 ![0] bcast_S600000_S600000x1_0 : (⟨S600000, .f32⟩ : BufTy).Contents (Elt F) → (⟨S600000x1, .f32⟩ : BufTy).Contents (Elt F)),
    unary main_v39 main_v40 (broadcastInDim S600000x128 ![0, 1] bcast_S600000x1_S600000x128_0_1 : (⟨S600000x1, .f32⟩ : BufTy).Contents (Elt F) → (⟨S600000x128, .f32⟩ : BufTy).Contents (Elt F)),
    binary main_v38 main_v40 main_v41 (mulf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v16 main_v16 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v4 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_arg2 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v52) (TRef.of (T := ⟨S50000x128, .f32⟩) main_call0_v0) (TRef.of (T := ⟨S50000x128, .f32⟩) main_v53) maximumf ]

theorem ops1_sub : (ops1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem ops1_fresh : ∀ op ∈ (ops1 : List (HloOp τ sig (Elt F))), op.fresh = ∅ := by
  intro _ h; (repeat (cases h with | head => rfl | tail _ h => ?_)); exact nomatch h

abbrev ops2 : List (HloOp τ sig (Elt F)) :=
  [ binary main_v53 main_arg3 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_10 (constant S_ .f32 0x00000000#32),
    unary main_cst_10 main_v55 (broadcastInDim S50000 ![] bcast_S_S50000 : (⟨S_, .f32⟩ : BufTy).Contents (Elt F) → (⟨S50000, .f32⟩ : BufTy).Contents (Elt F)),
    nullary main_c_11 (constantI S_ 32 0#32),
    unary main_c_11 main_v56 (broadcastInDim S600000 ![] bcast_S_S600000 : (⟨S_, .i32⟩ : BufTy).Contents (Elt F) → (⟨S600000, .i32⟩ : BufTy).Contents (Elt F)),
    binary main_v3 main_v56 main_v57 (cmpi .slt : (⟨S600000, .i32⟩ : BufTy).Contents (Elt F) → (⟨S600000, .i32⟩ : BufTy).Contents (Elt F) → (⟨S600000, .i1⟩ : BufTy).Contents (Elt F)),
    nullary main_c_12 (constantI S_ 32 50000#32),
    unary main_c_12 main_v58 (broadcastInDim S600000 ![] bcast_S_S600000 : (⟨S_, .i32⟩ : BufTy).Contents (Elt F) → (⟨S600000, .i32⟩ : BufTy).Contents (Elt F)),
    binary main_v3 main_v58 main_v59 (addi : (⟨S600000, .i32⟩ : BufTy).Contents (Elt F) → (⟨S600000, .i32⟩ : BufTy).Contents (Elt F) → (⟨S600000, .i32⟩ : BufTy).Contents (Elt F)),
    ternary main_v57 main_v59 main_v3 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v60 main_v61 (broadcastInDim S600000x1 ![0] bcast_S600000_S600000x1_0 : (⟨S600000, .i32⟩ : BufTy).Contents (Elt F) → (⟨S600000x1, .i32⟩ : BufTy).Contents (Elt F)),
    nullary main_cst_13 (constant S_ .f32 0x3F800000#32),
    unary main_cst_13 main_v62 (broadcastInDim S600000 ![] bcast_S_S600000 : (⟨S_, .f32⟩ : BufTy).Contents (Elt F) → (⟨S600000, .f32⟩ : BufTy).Contents (Elt F)),
    ternary main_v55 main_v61 main_v62 main_v63 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_14 (constant S_ .f32 0x3F800000#32),
    unary main_cst_14 main_v64 (broadcastInDim S50000 ![] bcast_S_S50000 : (⟨S_, .f32⟩ : BufTy).Contents (Elt F) → (⟨S50000, .f32⟩ : BufTy).Contents (Elt F)),
    binary main_v63 main_v64 main_v65 (addf : (⟨S50000, .f32⟩ : BufTy).Contents (Elt F) → (⟨S50000, .f32⟩ : BufTy).Contents (Elt F) → (⟨S50000, .f32⟩ : BufTy).Contents (Elt F)),
    unary main_v65 main_v66 (Host.rsqrt : (⟨S50000, .f32⟩ : BufTy).Contents (Elt F) → (⟨S50000, .f32⟩ : BufTy).Contents (Elt F)),
    nullary main_c_15 (constantI S_ 32 0#32),
    unary main_c_15 main_v67 (broadcastInDim S600000 ![] bcast_S_S600000 : (⟨S_, .i32⟩ : BufTy).Contents (Elt F) → (⟨S600000, .i32⟩ : BufTy).Contents (Elt F)),
    binary main_v1 main_v67 main_v68 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v69 (broadcastInDim S600000 ![] bcast_S_S600000 : (⟨S_, .i32⟩ : BufTy).Contents (Elt F) → (⟨S600000, .i32⟩ : BufTy).Contents (Elt F)),
    binary main_v1 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v1 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v66 main_v72 main_v73 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_17 (constantI S_ 32 0#32),
    unary main_c_17 main_v74 (broadcastInDim S600000 ![] bcast_S_S600000 : (⟨S_, .i32⟩ : BufTy).Contents (Elt F) → (⟨S600000, .i32⟩ : BufTy).Contents (Elt F)),
    binary main_v3 main_v74 main_v75 (cmpi .slt : (⟨S600000, .i32⟩ : BufTy).Contents (Elt F) → (⟨S600000, .i32⟩ : BufTy).Contents (Elt F) → (⟨S600000, .i1⟩ : BufTy).Contents (Elt F)),
    nullary main_c_18 (constantI S_ 32 50000#32),
    unary main_c_18 main_v76 (broadcastInDim S600000 ![] bcast_S_S600000 : (⟨S_, .i32⟩ : BufTy).Contents (Elt F) → (⟨S600000, .i32⟩ : BufTy).Contents (Elt F)),
    binary main_v3 main_v76 main_v77 (addi : (⟨S600000, .i32⟩ : BufTy).Contents (Elt F) → (⟨S600000, .i32⟩ : BufTy).Contents (Elt F) → (⟨S600000, .i32⟩ : BufTy).Contents (Elt F)),
    ternary main_v75 main_v77 main_v3 main_v78 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v78 main_v79 (broadcastInDim S600000x1 ![0] bcast_S600000_S600000x1_0 : (⟨S600000, .i32⟩ : BufTy).Contents (Elt F) → (⟨S600000x1, .i32⟩ : BufTy).Contents (Elt F)),
    binary main_v66 main_v79 main_v80 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v73 main_v80 main_v81 (mulf : (⟨S600000, .f32⟩ : BufTy).Contents (Elt F) → (⟨S600000, .f32⟩ : BufTy).Contents (Elt F) → (⟨S600000, .f32⟩ : BufTy).Contents (Elt F)),
    nullary main_c_19 (constantI S_ 32 0#32),
    unary main_c_19 main_v82 (broadcastInDim S600000 ![] bcast_S_S600000 : (⟨S_, .i32⟩ : BufTy).Contents (Elt F) → (⟨S600000, .i32⟩ : BufTy).Contents (Elt F)),
    binary main_v1 main_v82 main_v83 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v84 (broadcastInDim S600000 ![] bcast_S_S600000 : (⟨S_, .i32⟩ : BufTy).Contents (Elt F) → (⟨S600000, .i32⟩ : BufTy).Contents (Elt F)),
    binary main_v1 main_v84 main_v85 (addi : (⟨S600000, .i32⟩ : BufTy).Contents (Elt F) → (⟨S600000, .i32⟩ : BufTy).Contents (Elt F) → (⟨S600000, .i32⟩ : BufTy).Contents (Elt F)),
    ternary main_v83 main_v85 main_v1 main_v86 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v86 main_v87 (broadcastInDim S600000x1 ![0] bcast_S600000_S600000x1_0 : (⟨S600000, .i32⟩ : BufTy).Contents (Elt F) → (⟨S600000x1, .i32⟩ : BufTy).Contents (Elt F)),
    binary main_v54 main_v87 main_v88 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v81 main_v89 (broadcastInDim S600000x1 ![0] bcast_S600000_S600000x1_0 : (⟨S600000, .f32⟩ : BufTy).Contents (Elt F) → (⟨S600000x1, .f32⟩ : BufTy).Contents (Elt F)),
    unary main_v89 main_v90 (broadcastInDim S600000x128 ![0, 1] bcast_S600000x1_S600000x128_0_1 : (⟨S600000x1, .f32⟩ : BufTy).Contents (Elt F) → (⟨S600000x128, .f32⟩ : BufTy).Contents (Elt F)),
    binary main_v88 main_v90 main_v91 (mulf : (⟨S600000x128, .f32⟩ : BufTy).Contents (Elt F) → (⟨S600000x128, .f32⟩ : BufTy).Contents (Elt F) → (⟨S600000x128, .f32⟩ : BufTy).Contents (Elt F)),
    nullary main_cst_21 (constant S_ .f32 0x00000000#32),
    unary main_cst_21 main_v92 (broadcastInDim S50000x128 ![] bcast_S_S50000x128 : (⟨S_, .f32⟩ : BufTy).Contents (Elt F) → (⟨S50000x128, .f32⟩ : BufTy).Contents (Elt F)),
    unary main_v3 main_v93 (broadcastInDim S600000x1 ![0] bcast_S600000_S600000x1_0 : (⟨S600000, .i32⟩ : BufTy).Contents (Elt F) → (⟨S600000x1, .i32⟩ : BufTy).Contents (Elt F)),
    ternary main_v92 main_v93 main_v91 main_v94 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v66 main_v66 main_v95 (mulf : (⟨S50000, .f32⟩ : BufTy).Contents (Elt F) → (⟨S50000, .f32⟩ : BufTy).Contents (Elt F) → (⟨S50000, .f32⟩ : BufTy).Contents (Elt F)),
    unary main_v95 main_v96 (broadcastInDim S50000x1 ![0] bcast_S50000_S50000x1_0 : (⟨S50000, .f32⟩ : BufTy).Contents (Elt F) → (⟨S50000x1, .f32⟩ : BufTy).Contents (Elt F)),
    unary main_v96 main_v97 (broadcastInDim S50000x128 ![0, 1] bcast_S50000x1_S50000x128_0_1 : (⟨S50000x1, .f32⟩ : BufTy).Contents (Elt F) → (⟨S50000x128, .f32⟩ : BufTy).Contents (Elt F)),
    binary main_v54 main_v97 main_v98 (mulf : (⟨S50000x128, .f32⟩ : BufTy).Contents (Elt F) → (⟨S50000x128, .f32⟩ : BufTy).Contents (Elt F) → (⟨S50000x128, .f32⟩ : BufTy).Contents (Elt F)),
    binary main_v94 main_v98 main_v99 (addf : (⟨S50000x128, .f32⟩ : BufTy).Contents (Elt F) → (⟨S50000x128, .f32⟩ : BufTy).Contents (Elt F) → (⟨S50000x128, .f32⟩ : BufTy).Contents (Elt F)),
    unary main_arg4 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v99 main_v101 main_v102 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v102) (TRef.of (T := ⟨S50000x128, .f32⟩) main_call1_v0) (TRef.of (T := ⟨S50000x128, .f32⟩) main_v103) maximumf ]

theorem ops2_sub : (ops2 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

abbrev ops3 : List (HloOp τ sig (Elt F)) :=
  [ binary main_v103 main_arg5 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_22 (constant S_ .f32 0x00000000#32),
    unary main_cst_22 main_v105 (broadcastInDim S50000 ![] bcast_S_S50000 : (⟨S_, .f32⟩ : BufTy).Contents (Elt F) → (⟨S50000, .f32⟩ : BufTy).Contents (Elt F)),
    nullary main_c_23 (constantI S_ 32 0#32),
    unary main_c_23 main_v106 (broadcastInDim S600000 ![] bcast_S_S600000 : (⟨S_, .i32⟩ : BufTy).Contents (Elt F) → (⟨S600000, .i32⟩ : BufTy).Contents (Elt F)),
    binary main_v3 main_v106 main_v107 (cmpi .slt : (⟨S600000, .i32⟩ : BufTy).Contents (Elt F) → (⟨S600000, .i32⟩ : BufTy).Contents (Elt F) → (⟨S600000, .i1⟩ : BufTy).Contents (Elt F)),
    nullary main_c_24 (constantI S_ 32 50000#32),
    unary main_c_24 main_v108 (broadcastInDim S600000 ![] bcast_S_S600000 : (⟨S_, .i32⟩ : BufTy).Contents (Elt F) → (⟨S600000, .i32⟩ : BufTy).Contents (Elt F)),
    binary main_v3 main_v108 main_v109 (addi : (⟨S600000, .i32⟩ : BufTy).Contents (Elt F) → (⟨S600000, .i32⟩ : BufTy).Contents (Elt F) → (⟨S600000, .i32⟩ : BufTy).Contents (Elt F)),
    ternary main_v107 main_v109 main_v3 main_v110 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v110 main_v111 (broadcastInDim S600000x1 ![0] bcast_S600000_S600000x1_0 : (⟨S600000, .i32⟩ : BufTy).Contents (Elt F) → (⟨S600000x1, .i32⟩ : BufTy).Contents (Elt F)),
    nullary main_cst_25 (constant S_ .f32 0x3F800000#32),
    unary main_cst_25 main_v112 (broadcastInDim S600000 ![] bcast_S_S600000 : (⟨S_, .f32⟩ : BufTy).Contents (Elt F) → (⟨S600000, .f32⟩ : BufTy).Contents (Elt F)),
    ternary main_v105 main_v111 main_v112 main_v113 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_26 (constant S_ .f32 0x3F800000#32),
    unary main_cst_26 main_v114 (broadcastInDim S50000 ![] bcast_S_S50000 : (⟨S_, .f32⟩ : BufTy).Contents (Elt F) → (⟨S50000, .f32⟩ : BufTy).Contents (Elt F)),
    binary main_v113 main_v114 main_v115 (addf : (⟨S50000, .f32⟩ : BufTy).Contents (Elt F) → (⟨S50000, .f32⟩ : BufTy).Contents (Elt F) → (⟨S50000, .f32⟩ : BufTy).Contents (Elt F)),
    unary main_v115 main_v116 (Host.rsqrt : (⟨S50000, .f32⟩ : BufTy).Contents (Elt F) → (⟨S50000, .f32⟩ : BufTy).Contents (Elt F)),
    nullary main_c_27 (constantI S_ 32 0#32),
    unary main_c_27 main_v117 (broadcastInDim S600000 ![] bcast_S_S600000 : (⟨S_, .i32⟩ : BufTy).Contents (Elt F) → (⟨S600000, .i32⟩ : BufTy).Contents (Elt F)),
    binary main_v1 main_v117 main_v118 (cmpi .slt : (⟨S600000, .i32⟩ : BufTy).Contents (Elt F) → (⟨S600000, .i32⟩ : BufTy).Contents (Elt F) → (⟨S600000, .i1⟩ : BufTy).Contents (Elt F)),
    nullary main_c_28 (constantI S_ 32 50000#32),
    unary main_c_28 main_v119 (broadcastInDim S600000 ![] bcast_S_S600000 : (⟨S_, .i32⟩ : BufTy).Contents (Elt F) → (⟨S600000, .i32⟩ : BufTy).Contents (Elt F)),
    binary main_v1 main_v119 main_v120 (addi : (⟨S600000, .i32⟩ : BufTy).Contents (Elt F) → (⟨S600000, .i32⟩ : BufTy).Contents (Elt F) → (⟨S600000, .i32⟩ : BufTy).Contents (Elt F)),
    ternary main_v118 main_v120 main_v1 main_v121 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v121 main_v122 (broadcastInDim S600000x1 ![0] bcast_S600000_S600000x1_0 : (⟨S600000, .i32⟩ : BufTy).Contents (Elt F) → (⟨S600000x1, .i32⟩ : BufTy).Contents (Elt F)),
    binary main_v116 main_v122 main_v123 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_29 (constantI S_ 32 0#32),
    unary main_c_29 main_v124 (broadcastInDim S600000 ![] bcast_S_S600000 : (⟨S_, .i32⟩ : BufTy).Contents (Elt F) → (⟨S600000, .i32⟩ : BufTy).Contents (Elt F)),
    binary main_v3 main_v124 main_v125 (cmpi .slt : (⟨S600000, .i32⟩ : BufTy).Contents (Elt F) → (⟨S600000, .i32⟩ : BufTy).Contents (Elt F) → (⟨S600000, .i1⟩ : BufTy).Contents (Elt F)),
    nullary main_c_30 (constantI S_ 32 50000#32),
    unary main_c_30 main_v126 (broadcastInDim S600000 ![] bcast_S_S600000 : (⟨S_, .i32⟩ : BufTy).Contents (Elt F) → (⟨S600000, .i32⟩ : BufTy).Contents (Elt F)),
    binary main_v3 main_v126 main_v127 (addi : (⟨S600000, .i32⟩ : BufTy).Contents (Elt F) → (⟨S600000, .i32⟩ : BufTy).Contents (Elt F) → (⟨S600000, .i32⟩ : BufTy).Contents (Elt F)),
    ternary main_v125 main_v127 main_v3 main_v128 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v128 main_v129 (broadcastInDim S600000x1 ![0] bcast_S600000_S600000x1_0 : (⟨S600000, .i32⟩ : BufTy).Contents (Elt F) → (⟨S600000x1, .i32⟩ : BufTy).Contents (Elt F)),
    binary main_v116 main_v129 main_v130 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v123 main_v130 main_v131 (mulf : (⟨S600000, .f32⟩ : BufTy).Contents (Elt F) → (⟨S600000, .f32⟩ : BufTy).Contents (Elt F) → (⟨S600000, .f32⟩ : BufTy).Contents (Elt F)),
    nullary main_c_31 (constantI S_ 32 0#32),
    unary main_c_31 main_v132 (broadcastInDim S600000 ![] bcast_S_S600000 : (⟨S_, .i32⟩ : BufTy).Contents (Elt F) → (⟨S600000, .i32⟩ : BufTy).Contents (Elt F)),
    binary main_v1 main_v132 main_v133 (cmpi .slt : (⟨S600000, .i32⟩ : BufTy).Contents (Elt F) → (⟨S600000, .i32⟩ : BufTy).Contents (Elt F) → (⟨S600000, .i1⟩ : BufTy).Contents (Elt F)),
    nullary main_c_32 (constantI S_ 32 50000#32),
    unary main_c_32 main_v134 (broadcastInDim S600000 ![] bcast_S_S600000 : (⟨S_, .i32⟩ : BufTy).Contents (Elt F) → (⟨S600000, .i32⟩ : BufTy).Contents (Elt F)),
    binary main_v1 main_v134 main_v135 (addi : (⟨S600000, .i32⟩ : BufTy).Contents (Elt F) → (⟨S600000, .i32⟩ : BufTy).Contents (Elt F) → (⟨S600000, .i32⟩ : BufTy).Contents (Elt F)),
    ternary main_v133 main_v135 main_v1 main_v136 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v136 main_v137 (broadcastInDim S600000x1 ![0] bcast_S600000_S600000x1_0 : (⟨S600000, .i32⟩ : BufTy).Contents (Elt F) → (⟨S600000x1, .i32⟩ : BufTy).Contents (Elt F)),
    binary main_v104 main_v137 main_v138 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v131 main_v139 (broadcastInDim S600000x1 ![0] bcast_S600000_S600000x1_0 : (⟨S600000, .f32⟩ : BufTy).Contents (Elt F) → (⟨S600000x1, .f32⟩ : BufTy).Contents (Elt F)),
    unary main_v139 main_v140 (broadcastInDim S600000x128 ![0, 1] bcast_S600000x1_S600000x128_0_1 : (⟨S600000x1, .f32⟩ : BufTy).Contents (Elt F) → (⟨S600000x128, .f32⟩ : BufTy).Contents (Elt F)),
    binary main_v138 main_v140 main_v141 (mulf : (⟨S600000x128, .f32⟩ : BufTy).Contents (Elt F) → (⟨S600000x128, .f32⟩ : BufTy).Contents (Elt F) → (⟨S600000x128, .f32⟩ : BufTy).Contents (Elt F)),
    nullary main_cst_33 (constant S_ .f32 0x00000000#32),
    unary main_cst_33 main_v142 (broadcastInDim S50000x128 ![] bcast_S_S50000x128 : (⟨S_, .f32⟩ : BufTy).Contents (Elt F) → (⟨S50000x128, .f32⟩ : BufTy).Contents (Elt F)),
    unary main_v3 main_v143 (broadcastInDim S600000x1 ![0] bcast_S600000_S600000x1_0 : (⟨S600000, .i32⟩ : BufTy).Contents (Elt F) → (⟨S600000x1, .i32⟩ : BufTy).Contents (Elt F)),
    ternary main_v142 main_v143 main_v141 main_v144 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v116 main_v116 main_v145 (mulf : (⟨S50000, .f32⟩ : BufTy).Contents (Elt F) → (⟨S50000, .f32⟩ : BufTy).Contents (Elt F) → (⟨S50000, .f32⟩ : BufTy).Contents (Elt F)),
    unary main_v145 main_v146 (broadcastInDim S50000x1 ![0] bcast_S50000_S50000x1_0 : (⟨S50000, .f32⟩ : BufTy).Contents (Elt F) → (⟨S50000x1, .f32⟩ : BufTy).Contents (Elt F)),
    unary main_v146 main_v147 (broadcastInDim S50000x128 ![0, 1] bcast_S50000x1_S50000x128_0_1 : (⟨S50000x1, .f32⟩ : BufTy).Contents (Elt F) → (⟨S50000x128, .f32⟩ : BufTy).Contents (Elt F)),
    binary main_v104 main_v147 main_v148 (mulf : (⟨S50000x128, .f32⟩ : BufTy).Contents (Elt F) → (⟨S50000x128, .f32⟩ : BufTy).Contents (Elt F) → (⟨S50000x128, .f32⟩ : BufTy).Contents (Elt F)),
    binary main_v144 main_v148 main_v149 (addf : (⟨S50000x128, .f32⟩ : BufTy).Contents (Elt F) → (⟨S50000x128, .f32⟩ : BufTy).Contents (Elt F) → (⟨S50000x128, .f32⟩ : BufTy).Contents (Elt F)),
    unary main_arg6 main_v150 (broadcastInDim S1x128 ![1] bcast_S128_S1x128_1 : (⟨S128, .f32⟩ : BufTy).Contents (Elt F) → (⟨S1x128, .f32⟩ : BufTy).Contents (Elt F)),
    unary main_v150 main_v151 (broadcastInDim S50000x128 ![0, 1] bcast_S1x128_S50000x128_0_1 : (⟨S1x128, .f32⟩ : BufTy).Contents (Elt F) → (⟨S50000x128, .f32⟩ : BufTy).Contents (Elt F)),
    binary main_v149 main_v151 main_v152 (addf : (⟨S50000x128, .f32⟩ : BufTy).Contents (Elt F) → (⟨S50000x128, .f32⟩ : BufTy).Contents (Elt F) → (⟨S50000x128, .f32⟩ : BufTy).Contents (Elt F)) ]

theorem ops3_sub : (ops3 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

abbrev ops4 : List (HloOp τ sig (Elt F)) :=
  [ nullary main_cst_34 (constant S_ .f32 0x00000000#32),
    unary main_cst_34 main_v153 (broadcastInDim S500x128 ![] bcast_S_S500x128 : (⟨S_, .f32⟩ : BufTy).Contents (Elt F) → (⟨S500x128, .f32⟩ : BufTy).Contents (Elt F)),
    unary main_arg10 main_v154 (broadcastInDim S50000x1 ![0] bcast_S50000_S50000x1_0 : (⟨S50000, .i32⟩ : BufTy).Contents (Elt F) → (⟨S50000x1, .i32⟩ : BufTy).Contents (Elt F)),
    ternary main_v153 main_v154 main_v152 main_v155 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    nullary main_cst_35 (constant S_ .f32 0x3F800000#32),
    unary main_cst_35 main_v156 (broadcastInDim S50000 ![] bcast_S_S50000 : (⟨S_, .f32⟩ : BufTy).Contents (Elt F) → (⟨S50000, .f32⟩ : BufTy).Contents (Elt F)),
    nullary main_cst_36 (constant S_ .f32 0x00000000#32),
    unary main_cst_36 main_v157 (broadcastInDim S500 ![] bcast_S_S500 : (⟨S_, .f32⟩ : BufTy).Contents (Elt F) → (⟨S500, .f32⟩ : BufTy).Contents (Elt F)),
    unary main_arg10 main_v158 (broadcastInDim S50000x1 ![0] bcast_S50000_S50000x1_0 : (⟨S50000, .i32⟩ : BufTy).Contents (Elt F) → (⟨S50000x1, .i32⟩ : BufTy).Contents (Elt F)),
    ternary main_v157 main_v158 main_v156 main_v159 ((fun x i u => Host.scatterAdd scatter_S500_S50000x1_S50000_n_0_0_1 x i u) : (⟨S500, .f32⟩ : BufTy).Contents (Elt F) → (⟨S50000x1, .i32⟩ : BufTy).Contents (Elt F) → (⟨S50000, .f32⟩ : BufTy).Contents (Elt F) → (⟨S500, .f32⟩ : BufTy).Contents (Elt F)),
    nullary main_cst_37 (constant S_ .f32 0x3F800000#32),
    unary main_cst_37 main_v160 (broadcastInDim S500 ![] bcast_S_S500 : (⟨S_, .f32⟩ : BufTy).Contents (Elt F) → (⟨S500, .f32⟩ : BufTy).Contents (Elt F)),
    binary main_v159 main_v160 main_v161 (maximumf : (⟨S500, .f32⟩ : BufTy).Contents (Elt F) → (⟨S500, .f32⟩ : BufTy).Contents (Elt F) → (⟨S500, .f32⟩ : BufTy).Contents (Elt F)),
    unary main_v161 main_v162 (broadcastInDim S500x1 ![0] bcast_S500_S500x1_0 : (⟨S500, .f32⟩ : BufTy).Contents (Elt F) → (⟨S500x1, .f32⟩ : BufTy).Contents (Elt F)),
    unary main_v162 main_v163 (broadcastInDim S500x128 ![0, 1] bcast_S500x1_S500x128_0_1 : (⟨S500x1, .f32⟩ : BufTy).Contents (Elt F) → (⟨S500x128, .f32⟩ : BufTy).Contents (Elt F)),
    binary main_v155 main_v163 main_v164 (Host.divf : (⟨S500x128, .f32⟩ : BufTy).Contents (Elt F) → (⟨S500x128, .f32⟩ : BufTy).Contents (Elt F) → (⟨S500x128, .f32⟩ : BufTy).Contents (Elt F)),
    binary main_v164 main_arg7 main_v165 ((fun l r => Host.dotGeneral dot_S500x128_S128x2_S500x2_1_0_0_1_n_n none l r) : (⟨S500x128, .f32⟩ : BufTy).Contents (Elt F) → (⟨S128x2, .f32⟩ : BufTy).Contents (Elt F) → (⟨S500x2, .f32⟩ : BufTy).Contents (Elt F)),
    unary main_arg8 main_v166 (broadcastInDim S1x2 ![1] bcast_S2_S1x2_1 : (⟨S2, .f32⟩ : BufTy).Contents (Elt F) → (⟨S1x2, .f32⟩ : BufTy).Contents (Elt F)),
    unary main_v166 main_v167 (broadcastInDim S500x2 ![0, 1] bcast_S1x2_S500x2_0_1 : (⟨S1x2, .f32⟩ : BufTy).Contents (Elt F) → (⟨S500x2, .f32⟩ : BufTy).Contents (Elt F)),
    binary main_v165 main_v167 main_v168 (addf : (⟨S500x2, .f32⟩ : BufTy).Contents (Elt F) → (⟨S500x2, .f32⟩ : BufTy).Contents (Elt F) → (⟨S500x2, .f32⟩ : BufTy).Contents (Elt F)) ]

theorem ops4_sub : (ops4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

theorem ops4_fresh : ∀ op ∈ (ops4 : List (HloOp τ sig (Elt F))), op.fresh = ∅ := by
  intro _ h; (repeat (cases h with | head => rfl | tail _ h => ?_)); exact nomatch h

set_option maxRecDepth 8192 in
theorem main_eq (c : Dev nD) : main (F := F) c = seq (ops1 ++ ops2 ++ ops3 ++ ops4) := by
  chain_rfl

section Chunks

variable (W : Valuation τ sig (Elt F))

theorem ops1_v1 : after ops1 W main_v1 = refSrc (W main_arg9) := by
  show after ops1 W (Proc.devRef .tc main_v1) = _
  after_results_simp
  rfl

theorem ops1_v3 : after ops1 W main_v3 = refDst (W main_arg9) := by
  show after ops1 W (Proc.devRef .tc main_v3) = _
  after_results_simp
  rfl

theorem ops1_v53 : after ops1 W main_v53 = refRelu (refConv1 (W main_arg0) (W main_arg1) (W main_arg2) (W main_arg9)) := by
  show after ops1 W (Proc.devRef .tc main_v53) = _
  after_results_simp
  rfl

theorem ops2_v103 (ei : IVec S2x600000 32) (h1 : W (Proc.devRef .tc main_v1) = refSrc ei) (h3 : W (Proc.devRef .tc main_v3) = refDst ei) :
    after ops2 W main_v103 = refRelu (refConv (W main_v53) (W main_arg3) (W main_arg4) ei) := by
  show after ops2 W (Proc.devRef .tc main_v103) = _
  after_results_simp
  rw [h1, h3]
  rfl

theorem ops3_v152 (ei : IVec S2x600000 32) (h1 : W (Proc.devRef .tc main_v1) = refSrc ei) (h3 : W (Proc.devRef .tc main_v3) = refDst ei) :
    after ops3 W main_v152 = refConv (W main_v103) (W main_arg5) (W main_arg6) ei := by
  show after ops3 W (Proc.devRef .tc main_v152) = _
  after_results_simp
  rw [h1, h3]
  rfl

theorem ops4_v168 : after ops4 W main_v168 = refPool (W main_v152) (W main_arg10) (W main_arg7) (W main_arg8) := by
  show after ops4 W (Proc.devRef .tc main_v168) = _
  after_results_simp
  rfl

/-- A chunk leaves alone every buffer that none of its operations writes: so each argument, and the edge rows after the first chunk. -/
abbrev ops1_W : List (Ref sig .tc) := [main_v0, main_v1, main_v2, main_v3, main_v4, main_cst, main_v5, main_c, main_v6, main_v7, main_c_0, main_v8, main_v9, main_v10, main_v11, main_cst_1, main_v12, main_v13, main_cst_2, main_v14, main_v15, main_v16, main_c_3, main_v17, main_v18, main_c_4, main_v19, main_v20, main_v21, main_v22, main_v23, main_c_5, main_v24, main_v25, main_c_6, main_v26, main_v27, main_v28, main_v29, main_v30, main_v31, main_c_7, main_v32, main_v33, main_c_8, main_v34, main_v35, main_v36, main_v37, main_v38, main_v39, main_v40, main_v41, main_cst_9, main_v42, main_v43, main_v44, main_v45, main_v46, main_v47, main_v48, main_v49, main_v50, main_v51, main_v52, main_call0_cst, main_call0_v0, main_v53]

theorem ops1_writes : (ops1 : List (HloOp τ sig (Elt F))).Forall fun op => op.writes ⊆ (ops1_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops1_keep (r : Ref sig .tc) (h : r ∉ ops1_W := by decide) : after ops1 W r = W r := after_of_writes_sub ops1 W ops1_writes h

abbrev ops2_W : List (Ref sig .tc) := [main_v54, main_cst_10, main_v55, main_c_11, main_v56, main_v57, main_c_12, main_v58, main_v59, main_v60, main_v61, main_cst_13, main_v62, main_v63, main_cst_14, main_v64, main_v65, main_v66, main_c_15, main_v67, main_v68, main_c_16, main_v69, main_v70, main_v71, main_v72, main_v73, main_c_17, main_v74, main_v75, main_c_18, main_v76, main_v77, main_v78, main_v79, main_v80, main_v81, main_c_19, main_v82, main_v83, main_c_20, main_v84, main_v85, main_v86, main_v87, main_v88, main_v89, main_v90, main_v91, main_cst_21, main_v92, main_v93, main_v94, main_v95, main_v96, main_v97, main_v98, main_v99, main_v100, main_v101, main_v102, main_call1_cst, main_call1_v0, main_v103]

theorem ops2_writes : (ops2 : List (HloOp τ sig (Elt F))).Forall fun op => op.writes ⊆ (ops2_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops2_keep (r : Ref sig .tc) (h : r ∉ ops2_W := by decide) : after ops2 W r = W r := after_of_writes_sub ops2 W ops2_writes h

abbrev ops3_W : List (Ref sig .tc) := [main_v104, main_cst_22, main_v105, main_c_23, main_v106, main_v107, main_c_24, main_v108, main_v109, main_v110, main_v111, main_cst_25, main_v112, main_v113, main_cst_26, main_v114, main_v115, main_v116, main_c_27, main_v117, main_v118, main_c_28, main_v119, main_v120, main_v121, main_v122, main_v123, main_c_29, main_v124, main_v125, main_c_30, main_v126, main_v127, main_v128, main_v129, main_v130, main_v131, main_c_31, main_v132, main_v133, main_c_32, main_v134, main_v135, main_v136, main_v137, main_v138, main_v139, main_v140, main_v141, main_cst_33, main_v142, main_v143, main_v144, main_v145, main_v146, main_v147, main_v148, main_v149, main_v150, main_v151, main_v152]

theorem ops3_writes : (ops3 : List (HloOp τ sig (Elt F))).Forall fun op => op.writes ⊆ (ops3_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops3_keep (r : Ref sig .tc) (h : r ∉ ops3_W := by decide) : after ops3 W r = W r := after_of_writes_sub ops3 W ops3_writes h

abbrev ops4_W : List (Ref sig .tc) := [main_cst_34, main_v153, main_v154, main_v155, main_cst_35, main_v156, main_cst_36, main_v157, main_v158, main_v159, main_cst_37, main_v160, main_v161, main_v162, main_v163, main_v164, main_v165, main_v166, main_v167, main_v168]

theorem ops4_writes : (ops4 : List (HloOp τ sig (Elt F))).Forall fun op => op.writes ⊆ (ops4_W.map (Proc.devRef (τ := τ) .tc)).toFinset := by
  simp only [List.Forall]
  repeat' constructor
  all_goals (simp only [nullary_writes, unary_writes, binary_writes, ternary_writes, reshape_writes, Finset.singleton_subset_iff, List.mem_toFinset]; exact List.mem_map_of_mem (by decide))

theorem ops4_keep (r : Ref sig .tc) (h : r ∉ ops4_W := by decide) : after ops4 W r = W r := after_of_writes_sub ops4 W ops4_writes h

end Chunks

section Levels

variable (V : Valuation τ sig (Elt F))

theorem lvl2_keep (r : Ref sig .tc) (h₁ : r ∉ ops1_W := by decide) (h₂ : r ∉ ops2_W := by decide) : after ops2 (after ops1 V) r = V r := by
  rw [ops2_keep _ r h₂, ops1_keep _ r h₁]
theorem lvl3_keep (r : Ref sig .tc) (h₁ : r ∉ ops1_W := by decide) (h₂ : r ∉ ops2_W := by decide) (h₃ : r ∉ ops3_W := by decide) :
    after ops3 (after ops2 (after ops1 V)) r = V r := by rw [ops3_keep _ r h₃, lvl2_keep _ r h₁ h₂]
theorem lvl4_keep (r : Ref sig .tc) (h₁ : r ∉ ops1_W := by decide) (h₂ : r ∉ ops2_W := by decide) (h₃ : r ∉ ops3_W := by decide)
    (h₄ : r ∉ ops4_W := by decide) : after ops4 (after ops3 (after ops2 (after ops1 V))) r = V r := by rw [ops4_keep _ r h₄, lvl3_keep _ r h₁ h₂ h₃]

theorem lvl2_v103 : after ops2 (after ops1 V) main_v103
    = refRelu (refConv (refRelu (refConv1 (V main_arg0) (V main_arg1) (V main_arg2) (V main_arg9))) (V main_arg3) (V main_arg4) (V main_arg9)) := by
  rw [ops2_v103 (after ops1 V) (V main_arg9) (ops1_v1 V) (ops1_v3 V), ops1_v53, ops1_keep _ main_arg3, ops1_keep _ main_arg4]

theorem lvl2_v1 : after ops2 (after ops1 V) main_v1 = refSrc (V main_arg9) := by
  rw [ops2_keep _ main_v1, ops1_v1]

theorem lvl2_v3 : after ops2 (after ops1 V) main_v3 = refDst (V main_arg9) := by
  rw [ops2_keep _ main_v3, ops1_v3]

theorem lvl3_v152 : after ops3 (after ops2 (after ops1 V)) main_v152
    = refConv (refRelu (refConv (refRelu (refConv1 (V main_arg0) (V main_arg1) (V main_arg2) (V main_arg9))) (V main_arg3) (V main_arg4) (V main_arg9)))
        (V main_arg5) (V main_arg6) (V main_arg9) := by
  rw [ops3_v152 (after ops2 (after ops1 V)) (V main_arg9) (lvl2_v1 V) (lvl2_v3 V), lvl2_v103, lvl2_keep _ main_arg5, lvl2_keep _ main_arg6]

theorem lvl4_v168 : after ops4 (after ops3 (after ops2 (after ops1 V))) main_v168
    = refOut (V main_arg0) (V main_arg1) (V main_arg2) (V main_arg3) (V main_arg4) (V main_arg5) (V main_arg6) (V main_arg7) (V main_arg8)
        (V main_arg9) (V main_arg10) := by
  rw [ops4_v168, lvl3_v152, lvl3_keep _ main_arg10, lvl3_keep _ main_arg7, lvl3_keep _ main_arg8]; rfl

end Levels

theorem ops_sub : (ops1 ++ ops2 ++ ops3 ++ ops4 : List (HloOp τ sig (Elt F))).Forall fun op => op.bufs ⊆ tcRefs τ sig :=
  List.forall_iff_forall_mem.2 fun op h => by
    rcases List.mem_append.1 h with h | h
    · rcases List.mem_append.1 h with h | h
      · rcases List.mem_append.1 h with h | h
        · exact List.forall_iff_forall_mem.1 ops1_sub op h
        · exact List.forall_iff_forall_mem.1 ops2_sub op h
      · exact List.forall_iff_forall_mem.1 ops3_sub op h
    · exact List.forall_iff_forall_mem.1 ops4_sub op h

theorem ops_fresh : ∀ op ∈ (ops1 ++ ops2 ++ ops3 ++ ops4 : List (HloOp τ sig (Elt F))), op.fresh = ∅ := fun op h => by
  rcases List.mem_append.1 h with h | h
  · rcases List.mem_append.1 h with h | h
    · rcases List.mem_append.1 h with h | h
      · exact ops1_fresh op h
      · exact ops2_fresh op h
    · exact ops3_fresh op h
  · exact ops4_fresh op h

theorem scopedRefs_eq : (Finset.univ.filter fun b : Ref sig .tc => b.isScoped) = ∅ := by decide
theorem scopedSems_eq : (Finset.univ.filter fun sm : SemLoc sig => sm.isScoped .tc) = ∅ := by decide

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
      have key : ∀ b : Ref sig .tc, r.2.mem ((c.tc : Thread nD τ).loc b)
          = after ops4 (after ops3 (after ops2 (after ops1 (launchContents m c)))) (Proc.devRef .tc b) := fun b => by
        rw [h c b, after_append, after_append, after_append]
      exact ⟨(key main_v168).trans (lvl4_v168 (launchContents m c)),
        (key main_arg0).trans (lvl4_keep _ main_arg0),
        (key main_arg1).trans (lvl4_keep _ main_arg1),
        (key main_arg2).trans (lvl4_keep _ main_arg2),
        (key main_arg3).trans (lvl4_keep _ main_arg3),
        (key main_arg4).trans (lvl4_keep _ main_arg4),
        (key main_arg5).trans (lvl4_keep _ main_arg5),
        (key main_arg6).trans (lvl4_keep _ main_arg6),
        (key main_arg7).trans (lvl4_keep _ main_arg7),
        (key main_arg8).trans (lvl4_keep _ main_arg8),
        (key main_arg9).trans (lvl4_keep _ main_arg9),
        (key main_arg10).trans (lvl4_keep _ main_arg10)⟩)
    (run_seq scopedRefs_eq scopedSems_eq defs main (fun _ => ops1 ++ ops2 ++ ops3 ++ ops4) main_eq (fun _ => ops_sub) m ρ (fun _ => ops_fresh))

end Cert.ReferenceIdeal.Hand
-- ==== Proof.lean ====
/-
  Three graph-convolution layers, a mean pool over graphs and a linear classifier, against the reference, over the extended reals.
  The two sides multiply by the degree factors at different moments; finite inputs make every entry real, where a factor that
  does not depend on the edge moves across the sum over edges.
-/
import proofs.«405176_j18674517803330_2_alg».proof.Defs
import proofs.«405176_j18674517803330_2_alg».proof.Proof.Gen.Kernel
import proofs.«405176_j18674517803330_2_alg».proof.Proof.Gen.KernelIdeal
import proofs.«405176_j18674517803330_2_alg».proof.Proof.Gen.ReferenceIdeal
import proofs.«405176_j18674517803330_2_alg».proof.Proof.Gen.Pre_finite_inputs
import proofs.«405176_j18674517803330_2_alg».proof.Proof.KBRun
import proofs.«405176_j18674517803330_2_alg».proof.Proof.KIRun
import proofs.«405176_j18674517803330_2_alg».proof.Proof.KIThru
import proofs.«405176_j18674517803330_2_alg».proof.Proof.KIFinal
import proofs.«405176_j18674517803330_2_alg».proof.Proof.KIRefRun
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.frame_all (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.ref_run (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  apply Exists.intro
  refine ⟨?_, ?_⟩
  · refine (θ_run Cert.KernelIdeal.defs _ _).mono (fun r h c => ?_) (Cert.KernelIdeal.Hand.run_all (F := Ideal) m ρ)
    have hb : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b) = Cert.KernelIdeal.Hand.W11 m c b :=
      fun b hs => h c _ (Finset.mem_filter.mpr ⟨StableHlo.devRef_mem_tcRefs b, hs⟩)
    have ha : ∀ b : Ref Cert.KernelIdeal.sig .tc, ¬ (Proc.devRef .tc b : DevRef Cert.KernelIdeal.τ Cert.KernelIdeal.sig).isScoped →
        b ∉ Cert.KernelIdeal.Gen.hostOps0_W → Cert.KernelIdeal.Hand.M11 b →
        r.2.mem ((c.tc : Thread Cert.KernelIdeal.nD Cert.KernelIdeal.τ).loc b) = m ((c.tc : Thread Cert.KernelIdeal.nD Cert.KernelIdeal.τ).loc b) :=
      fun b hs h₁ h₂ => (hb b hs).trans (Cert.KernelIdeal.Hand.arg_11 m c b h₁ h₂)
    exact ⟨(hb Cert.KernelIdeal.main_v77 (by decide)).trans (Cert.KernelIdeal.Hand.kernel_value m c (hpre c)),
      ha Cert.KernelIdeal.main_arg0 (by decide) (by decide) (by decide),
      ha Cert.KernelIdeal.main_arg1 (by decide) (by decide) (by decide),
      ha Cert.KernelIdeal.main_arg2 (by decide) (by decide) (by decide),
      ha Cert.KernelIdeal.main_arg3 (by decide) (by decide) (by decide),
      ha Cert.KernelIdeal.main_arg4 (by decide) (by decide) (by decide),
      ha Cert.KernelIdeal.main_arg5 (by decide) (by decide) (by decide),
      ha Cert.KernelIdeal.main_arg6 (by decide) (by decide) (by decide),
      ha Cert.KernelIdeal.main_arg7 (by decide) (by decide) (by decide),
      ha Cert.KernelIdeal.main_arg8 (by decide) (by decide) (by decide),
      ha Cert.KernelIdeal.main_arg9 (by decide) (by decide) (by decide),
      ha Cert.KernelIdeal.main_arg10 (by decide) (by decide) (by decide)⟩
  · refine (θ_run Cert.ReferenceIdeal.defs _ _).mono (fun r h c => ⟨?_, (h c).2⟩) (Cert.ReferenceIdeal.Hand.ref_run (F := Ideal) m' ρ')
    obtain ⟨h0, h1, h2, h3, h4, h5, h6, h7, h8, h9, h10⟩ := hagree c
    rw [(h c).1, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
